-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg6 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x128 .f32) (main_arg1 : IVec S2x640000 32) (main_arg2 : IVec S10000 32) (main_arg3 : FVec F S128x128 .f32) (main_arg4 : FVec F S128 .f32) (main_arg5 : FVec F S128x2 .f32) (main_arg6 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg5
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg1 main_arg6 main_v13 main_v16
-- ==== Kernel.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S1264 : Shape := ⟨1, ![1264]⟩
abbrev S651264 : Shape := ⟨1, ![651264]⟩
abbrev S651264x1 : Shape := ⟨2, ![651264, 1]⟩
abbrev S10240x128 : Shape := ⟨2, ![10240, 128]⟩
abbrev S10240 : Shape := ⟨1, ![10240]⟩
abbrev S10240x1 : Shape := ⟨2, ![10240, 1]⟩
abbrev S2048x128 : Shape := ⟨2, ![2048, 128]⟩
abbrev S2048x1 : Shape := ⟨2, ![2048, 1]⟩
abbrev S636x1024 : Shape := ⟨2, ![636, 1024]⟩
abbrev S636 : Shape := ⟨1, ![636]⟩
abbrev S5 : Shape := ⟨1, ![5]⟩
abbrev S1x5 : Shape := ⟨2, ![1, 5]⟩
abbrev S636x1 : Shape := ⟨2, ![636, 1]⟩
abbrev S636x5 : Shape := ⟨2, ![636, 5]⟩
abbrev S2x10240x128 : Shape := ⟨3, ![2, 10240, 128]⟩
abbrev S1024 : Shape := ⟨1, ![1024]⟩
abbrev S1x10240x128 : Shape := ⟨3, ![1, 10240, 128]⟩
abbrev S1024x128 : Shape := ⟨2, ![1024, 128]⟩
abbrev S1x2048 : Shape := ⟨2, ![1, 2048]⟩
abbrev S1024x1 : Shape := ⟨2, ![1024, 1]⟩
abbrev S1024x2048 : Shape := ⟨2, ![1024, 2048]⟩
abbrev S1x1 : Shape := ⟨2, ![1, 1]⟩
abbrev S1x1024 : Shape := ⟨2, ![1, 1024]⟩
abbrev S2048x1024 : Shape := ⟨2, ![2048, 1024]⟩
abbrev S10000x1 : Shape := ⟨2, ![10000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 143
  | .vmem => 15
  | .smem => 1
  | _ => 0

abbrev hbmTy0_0 (i : Nat) : BufTy := match i % 128 with
  | 0 => ⟨S10000x128, .f32⟩
  | 1 => ⟨S2x640000, .i32⟩
  | 2 => ⟨S10000, .i32⟩
  | 3 => ⟨S128x128, .f32⟩
  | 4 => ⟨S128, .f32⟩
  | 5 => ⟨S128x2, .f32⟩
  | 6 => ⟨S2, .f32⟩
  | 7 => ⟨S10000, .i32⟩
  | 8 => ⟨S1x640000, .i32⟩
  | 9 => ⟨S640000, .i32⟩
  | 10 => ⟨S650000, .i32⟩
  | 11 => ⟨S1x640000, .i32⟩
  | 12 => ⟨S640000, .i32⟩
  | 13 => ⟨S650000, .i32⟩
  | 14 => ⟨S_, .f32⟩
  | 15 => ⟨S650000, .f32⟩
  | 16 => ⟨S_, .f32⟩
  | 17 => ⟨S10000, .f32⟩
  | 18 => ⟨S650000x1, .i32⟩
  | 19 => ⟨S10000, .f32⟩
  | 20 => ⟨S_, .f32⟩
  | 21 => ⟨S10000, .f32⟩
  | 22 => ⟨S10000, .i1⟩
  | 23 => ⟨S_, .f32⟩
  | 24 => ⟨S10000, .f32⟩
  | 25 => ⟨S10000, .f32⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S1264, .i32⟩
  | 33 => ⟨S651264, .i32⟩
  | 34 => ⟨S_, .i32⟩
  | 35 => ⟨S1264, .i32⟩
  | 36 => ⟨S651264, .i32⟩
  | 37 => ⟨S651264, .i32⟩
  | 38 => ⟨S651264, .i32⟩
  | 39 => ⟨S651264, .i32⟩
  | 40 => ⟨S_, .i32⟩
  | 41 => ⟨S651264, .i32⟩
  | 42 => ⟨S651264, .i1⟩
  | 43 => ⟨S_, .i32⟩
  | 44 => ⟨S651264, .i32⟩
  | 45 => ⟨S651264, .i32⟩
  | 46 => ⟨S651264, .i32⟩
  | 47 => ⟨S651264x1, .i32⟩
  | 48 => ⟨S651264, .i32⟩
  | 49 => ⟨S_, .i32⟩
  | 50 => ⟨S651264, .i32⟩
  | 51 => ⟨S651264, .i1⟩
  | 52 => ⟨S_, .i32⟩
  | 53 => ⟨S651264, .i32⟩
  | 54 => ⟨S651264, .i32⟩
  | 55 => ⟨S651264, .i32⟩
  | 56 => ⟨S651264x1, .i32⟩
  | 57 => ⟨S651264, .i32⟩
  | 58 => ⟨S_, .i32⟩
  | 59 => ⟨S_, .f32⟩
  | 60 => ⟨S10240x128, .f32⟩
  | 61 => ⟨S_, .i32⟩
  | 62 => ⟨S_, .f32⟩
  | 63 => ⟨S10240, .f32⟩
  | 64 => ⟨S10240x1, .f32⟩
  | 65 => ⟨S10240x128, .bf16⟩
  | 66 => ⟨S636x1024, .i32⟩
  | 67 => ⟨S_, .i32⟩
  | 68 => ⟨S636, .i32⟩
  | 69 => ⟨S_, .i32⟩
  | 70 => ⟨S636, .i32⟩
  | 71 => ⟨S5, .i32⟩
  | 72 => ⟨S_, .i32⟩
  | 73 => ⟨S5, .i32⟩
  | 74 => ⟨S5, .i32⟩
  | 75 => ⟨S_, .i32⟩
  | 76 => ⟨S5, .i32⟩
  | 77 => ⟨S5, .i32⟩
  | 78 => ⟨S1x5, .i32⟩
  | 79 => ⟨S636x1, .i32⟩
  | 80 => ⟨S_, .i32⟩
  | 81 => ⟨S636x1, .i32⟩
  | 82 => ⟨S636x1, .i32⟩
  | 83 => ⟨S636x5, .i32⟩
  | 84 => ⟨S636x5, .i32⟩
  | 85 => ⟨S636x5, .i1⟩
  | 86 => ⟨S1x5, .i32⟩
  | 87 => ⟨S636x1, .i32⟩
  | 88 => ⟨S636x5, .i32⟩
  | 89 => ⟨S636x5, .i32⟩
  | 90 => ⟨S636x5, .i1⟩
  | 91 => ⟨S636x5, .i1⟩
  | 92 => ⟨S2x10240x128, .f32⟩
  | 93 => ⟨S1x10240x128, .f32⟩
  | 94 => ⟨S10240x128, .f32⟩
  | 95 => ⟨S1x10240x128, .f32⟩
  | 96 => ⟨S10240x128, .f32⟩
  | 97 => ⟨S10240x128, .f32⟩
  | 98 => ⟨S10000x1, .f32⟩
  | 99 => ⟨S10000x128, .f32⟩
  | 100 => ⟨S10000x128, .f32⟩
  | 101 => ⟨S10000x128, .f32⟩
  | 102 => ⟨S1x128, .f32⟩
  | 103 => ⟨S10000x128, .f32⟩
  | 104 => ⟨S10000x128, .f32⟩
  | 105 => ⟨S_, .f32⟩
  | 106 => ⟨S10000x128, .f32⟩
  | 107 => ⟨S10000x128, .f32⟩
  | 108 => ⟨S_, .f32⟩
  | 109 => ⟨S64x128, .f32⟩
  | 110 => ⟨S10000x1, .i32⟩
  | 111 => ⟨S64x128, .f32⟩
  | 112 => ⟨S_, .f32⟩
  | 113 => ⟨S10000, .f32⟩
  | 114 => ⟨S_, .f32⟩
  | 115 => ⟨S64, .f32⟩
  | 116 => ⟨S10000x1, .i32⟩
  | 117 => ⟨S64, .f32⟩
  | 118 => ⟨S_, .f32⟩
  | 119 => ⟨S64, .f32⟩
  | 120 => ⟨S64, .f32⟩
  | 121 => ⟨S64x1, .f32⟩
  | 122 => ⟨S64x128, .f32⟩
  | 123 => ⟨S64x128, .f32⟩
  | 124 => ⟨S64x2, .f32⟩
  | 125 => ⟨S1x2, .f32⟩
  | 126 => ⟨S64x2, .f32⟩
  | 127 => ⟨S64x2, .f32⟩
  | _ => ⟨S10000x128, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S64x1, .f32⟩
  | 6 => ⟨S64x2, .f32⟩
  | 7 => ⟨S64x2, .f32⟩
  | 8 => ⟨S64x2, .f32⟩
  | 9 => ⟨S_, .f32⟩
  | 10 => ⟨S64, .f32⟩
  | 11 => ⟨S64x1, .f32⟩
  | 12 => ⟨S64x1, .f32⟩
  | 13 => ⟨S64x2, .f32⟩
  | 14 => ⟨S64x2, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x1, .f32⟩
  | .local _ .vmem, ⟨4, _⟩ => ⟨S2048x1, .f32⟩
  | .local _ .vmem, ⟨5, _⟩ => ⟨S2048x128, .bf16⟩
  | .local _ .vmem, ⟨6, _⟩ => ⟨S2048x128, .bf16⟩
  | .local _ .vmem, ⟨7, _⟩ => ⟨S1024, .i32⟩
  | .local _ .vmem, ⟨8, _⟩ => ⟨S1024, .i32⟩
  | .local _ .vmem, ⟨9, _⟩ => ⟨S1024, .i32⟩
  | .local _ .vmem, ⟨10, _⟩ => ⟨S1024, .i32⟩
  | .local _ .vmem, ⟨11, _⟩ => ⟨S10240x128, .bf16⟩
  | .local _ .vmem, ⟨12, _⟩ => ⟨S1x10240x128, .f32⟩
  | .local _ .vmem, ⟨13, _⟩ => ⟨S1x10240x128, .f32⟩
  | .local _ .vmem, ⟨14, _⟩ => ⟨S10240x128, .f32⟩
  | .local _ .smem, ⟨0, _⟩ => ⟨S636x5, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_call1_v1_0 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_call2_v0 : Ref sig .tc := ⟨.hbm, 59, rfl⟩
abbrev main_v36 : Ref sig .tc := ⟨.hbm, 60, rfl⟩
abbrev main_c_10 : Ref sig .tc := ⟨.hbm, 61, rfl⟩
abbrev main_call3_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_15 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call4_cst : Ref sig .tc := ⟨.hbm, 105, rfl⟩
abbrev main_call4_v0 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call5_cst : Ref sig .tc := ⟨.hbm, 128, rfl⟩
abbrev main_call5_v0 : Ref sig .tc := ⟨.hbm, 129, rfl⟩
abbrev main_call5_cst_0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_call5_v5 : Ref sig .tc := ⟨.hbm, 135, rfl⟩
abbrev main_call5_v6 : Ref sig .tc := ⟨.hbm, 136, rfl⟩
abbrev main_call5_cst_1 : Ref sig .tc := ⟨.hbm, 137, rfl⟩
abbrev main_call5_v7 : Ref sig .tc := ⟨.hbm, 138, rfl⟩
abbrev main_call5_v8 : Ref sig .tc := ⟨.hbm, 139, rfl⟩
abbrev main_call5_v9 : Ref sig .tc := ⟨.hbm, 140, rfl⟩
abbrev main_call5_v10 : Ref sig .tc := ⟨.hbm, 141, rfl⟩
abbrev main_v92 : Ref sig .tc := ⟨.hbm, 142, rfl⟩
abbrev main_v61 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 318], ![false, false]⟩

abbrev pre1 : Pipeline.Prefetch sig := ⟨1, ![main_v61.idx], fun | 0 => main_v61.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let c318_i32 : BitVec 32 := 318#32
  let v0 : BitVec 32 := Scalar.muli arg0 c318_i32
  let arg1 : BitVec 32 := BitVec.ofNat 32 (i 1).val
  let v1 : BitVec 32 := Scalar.addi v0 arg1
  let v81 : Index := Scalar.indexCast v1
  let c0_14 : Index := 0#32
  ![v81.toNat, 0]
def k1_off2 (i : grid1.Coords) : Fin 2 → Nat :=
  let arg0 : BitVec 32 := BitVec.ofNat 32 (i 0).val
  let c318_i32 : BitVec 32 := 318#32
  let v0 : BitVec 32 := Scalar.muli arg0 c318_i32
  let arg1 : BitVec 32 := BitVec.ofNat 32 (i 1).val
  let v1 : BitVec 32 := Scalar.addi v0 arg1
  let v86 : Index := Scalar.indexCast v1
  let c1 : Index := 1#32
  ![v86.toNat, 1]
def k1_off3 (i : grid1.Coords) : Fin 2 → Nat :=
  let arg0 : BitVec 32 := BitVec.ofNat 32 (i 0).val
  let c318_i32 : BitVec 32 := 318#32
  let v0 : BitVec 32 := Scalar.muli arg0 c318_i32
  let arg1 : BitVec 32 := BitVec.ofNat 32 (i 1).val
  let v1 : BitVec 32 := Scalar.addi v0 arg1
  let v91 : Index := Scalar.indexCast v1
  let c2 : Index := 2#32
  ![v91.toNat, 2]
def k1_off4 (i : grid1.Coords) : Fin 2 → Nat :=
  let arg0 : BitVec 32 := BitVec.ofNat 32 (i 0).val
  let c318_i32 : BitVec 32 := 318#32
  let v0 : BitVec 32 := Scalar.muli arg0 c318_i32
  let arg1 : BitVec 32 := BitVec.ofNat 32 (i 1).val
  let v1 : BitVec 32 := Scalar.addi v0 arg1
  let v96 : Index := Scalar.indexCast v1
  let c3 : Index := 3#32
  ![v96.toNat, 3]
def k1_off5 (i : grid1.Coords) : Fin 2 → Nat :=
  let arg0 : BitVec 32 := BitVec.ofNat 32 (i 0).val
  let c318_i32 : BitVec 32 := 318#32
  let v0 : BitVec 32 := Scalar.muli arg0 c318_i32
  let arg1 : BitVec 32 := BitVec.ofNat 32 (i 1).val
  let v1 : BitVec 32 := Scalar.addi v0 arg1
  let v101 : Index := Scalar.indexCast v1
  let c4 : Index := 4#32
  ![v101.toNat, 4]
def k1_cond7 (i : grid1.Coords) : BitVec 1 :=
  let arg1 : BitVec 32 := BitVec.ofNat 32 (i 1).val
  let c317_i32 : BitVec 32 := 317#32
  let v106 : BitVec 1 := Scalar.cmpi .eq arg1 c317_i32
  let v107 : BitVec 32 := Scalar.extui v106
  let c0_i32_25 : BitVec 32 := 0#32
  let v108 : BitVec 1 := Scalar.cmpi .ne v107 c0_i32_25
  v108

def cc1_transform_0 (i : grid1.Coords) : Fin 1 → Nat :=
  let arg0 : BitVec 32 := BitVec.ofNat 32 (i 0).val
  let arg1 : BitVec 32 := BitVec.ofNat 32 (i 1).val
  let c318_i32 : BitVec 32 := 318#32
  let v0 : BitVec 32 := Scalar.muli arg0 c318_i32
  let v1 : BitVec 32 := Scalar.addi v0 arg1
  let c0_i32 : BitVec 32 := 0#32
  ![v1.toNat]

def cc1_transform_1 (i : grid1.Coords) : Fin 1 → Nat :=
  let arg0 : BitVec 32 := BitVec.ofNat 32 (i 0).val
  let arg1 : BitVec 32 := BitVec.ofNat 32 (i 1).val
  let c318_i32 : BitVec 32 := 318#32
  let v0 : BitVec 32 := Scalar.muli arg0 c318_i32
  let v1 : BitVec 32 := Scalar.addi v0 arg1
  let c0_i32 : BitVec 32 := 0#32
  ![v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S10240x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x10240x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S1264 : S_.BroadcastsInDim S1264 (![] : Fin 0 → Fin S1264.rank)
  concatenates_S650000_S1264_S651264_d0 : Shape.Concatenates [S650000, S1264] S651264 0
  bcast_S_S651264 : S_.BroadcastsInDim S651264 (![] : Fin 0 → Fin S651264.rank)
  bcast_S651264_S651264x1_0 : S651264.BroadcastsInDim S651264x1 (![0] : Fin 1 → Fin S651264x1.rank)
  pads_S10000x128_S10240x128_02400_000 : S10000x128.Pads (![0, 0] : Fin 2 → Nat) ![240, 0] ![0, 0] S10240x128
  h_S_ : 0 < S_.numel
  pads_S10000_S10240_02400 : S10000.Pads (![0] : Fin 1 → Nat) ![240] ![0] S10240
  bcast_S10240_S10240x1_0 : S10240.BroadcastsInDim S10240x1 (![0] : Fin 1 → Fin S10240x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  packedbf16_S2048x128_S2048x128_0_0 : (Rect.unit (s := S2048x128) ![0, 0] S2048x128.size inb_S2048x128_S2048x128_0_0).PackedRows (EltTy.packing .bf16)
  shapeCasts_S651264_S636x1024 : S651264.ShapeCasts S636x1024
  reducesTo_S636x1024_S636_d1 : S636x1024.ReducesTo [1] S636
  bcast_S_S5 : S_.BroadcastsInDim S5 (![] : Fin 0 → Fin S5.rank)
  bcast_S5_S1x5_1 : S5.BroadcastsInDim S1x5 (![1] : Fin 1 → Fin S1x5.rank)
  bcast_S636_S636x1_0 : S636.BroadcastsInDim S636x1 (![0] : Fin 1 → Fin S636x1.rank)
  bcast_S_S636x1 : S_.BroadcastsInDim S636x1 (![] : Fin 0 → Fin S636x1.rank)
  bcast_S1x5_S636x5_0_1 : S1x5.BroadcastsInDim S636x5 (![0, 1] : Fin 2 → Fin S636x5.rank)
  bcast_S636x1_S636x5_0_1 : S636x1.BroadcastsInDim S636x5 (![0, 1] : Fin 2 → Fin S636x5.rank)
  natLt_1_32 : 1 < 32
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S1024_S1024_0 : ∀ a, (![0] : Fin 1 → Nat) a + S1024.size a ≤ S1024.size a
  h_S1024 : 0 < S1024.numel
  shapeCasts_S1024_S1024 : S1024.ShapeCasts S1024
  iota_S1x2048_d1_w32 : S1x2048.Iotas .tc 32 [1]
  shapeCasts_S1024_S1024x1 : S1024.ShapeCasts S1024x1
  broadcasts_S1024x1_S1024x2048 : S1024x1.Broadcasts S1024x2048
  broadcasts_S1x2048_S1024x2048 : S1x2048.Broadcasts S1024x2048
  inb_S10240x128_S2048x128_0_0 : ∀ a, (![0, 0] : Fin 2 → Nat) a + S2048x128.size a ≤ S10240x128.size a
  inb_S10240x128_S2048x128_2048_0 : ∀ a, (![2048, 0] : Fin 2 → Nat) a + S2048x128.size a ≤ S10240x128.size a
  inb_S10240x128_S2048x128_4096_0 : ∀ a, (![4096, 0] : Fin 2 → Nat) a + S2048x128.size a ≤ S10240x128.size a
  inb_S10240x128_S2048x128_6144_0 : ∀ a, (![6144, 0] : Fin 2 → Nat) a + S2048x128.size a ≤ S10240x128.size a
  inb_S10240x128_S2048x128_8192_0 : ∀ a, (![8192, 0] : Fin 2 → Nat) a + S2048x128.size a ≤ S10240x128.size a
  numel1_S1x1 : S1x1.numel = 1
  iota_S2048x1_d0_w32 : S2048x1.Iotas .tc 32 [0]
  shapeCasts_S1024_S1x1024 : S1024.ShapeCasts S1x1024
  broadcasts_S2048x1_S2048x1024 : S2048x1.Broadcasts S2048x1024
  broadcasts_S1x1024_S2048x1024 : S1x1024.Broadcasts S2048x1024
  inb_S1x10240x128_S1x10240x128_0_0_0 : ∀ a, (![0, 0, 0] : Fin 3 → Nat) a + S1x10240x128.size a ≤ S1x10240x128.size a
  h_S1x10240x128 : 0 < S1x10240x128.numel
  shapeCasts_S1x10240x128_S10240x128 : S1x10240x128.ShapeCasts S10240x128
  shapeCasts_S10240x128_S1x10240x128 : S10240x128.ShapeCasts S1x10240x128
  slices_S2x10240x128_S1x10240x128_0_0_0 : S2x10240x128.Slices ![0, 0, 0] S1x10240x128
  slices_S2x10240x128_S1x10240x128_1_0_0 : S2x10240x128.Slices ![1, 0, 0] S1x10240x128
  bcast_S10000_S10000x1_0 : S10000.BroadcastsInDim S10000x1 (![0] : Fin 1 → Fin S10000x1.rank)
  slices_S10240x128_S10000x128_0_0 : S10240x128.Slices ![0, 0] S10000x128
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  bcast_S64x1_S64x2_0_1 : S64x1.BroadcastsInDim S64x2 (![0, 1] : Fin 2 → Fin S64x2.rank)
  scatter_S10000_S650000x1_S650000_n_0_0_1_wf : ScatterDims.WF S10000 S650000x1 S650000 [] [0] [0] 1
  gather_S651264_S651264x1_S651264_n_0_n_n_0_1_1_wf : GatherDims.WF S651264 S651264x1 S651264 [] [0] [] [0] [] 1 ![1]
  dot_S2048x128_S128x128_S2048x128_1_0_0_1_n_n_wf : DotDims.WF S2048x128 S128x128 S2048x128 [1] [0] [0] [1] [] []
  dot_S1024x2048_S2048x128_S1024x128_1_0_0_1_n_n_wf : DotDims.WF S1024x2048 S2048x128 S1024x128 [1] [0] [0] [1] [] []
  dot_S2048x1024_S1024x128_S2048x128_1_0_0_1_n_n_wf : DotDims.WF S2048x1024 S1024x128 S2048x128 [1] [0] [0] [1] [] []
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S10240x128.size a
  hwx0_0 : ∀ i : grid0.Coords, EltTy.bits .f32 = 32 ∨ (Rect.block (s := S10240x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S10240x1.size a
  hwx0_2 : ∀ i : grid0.Coords, EltTy.bits .f32 = 32 ∨ (Rect.block (s := S10240x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S10240x128.size a
  hwx0_3 : ∀ i : grid0.Coords, EltTy.bits .bf16 = 32 ∨ (Rect.block (s := S10240x128) S2048x128.size (cc0_transform_3 i) (hinb0_3 i)).WholeWords (EltTy.packing .bf16)
  hrank1 : 0 < grid1.rank
  k1_off1_inb : ∀ i : grid1.Coords, ∀ a, (k1_off1 i) a + S1x1.size a ≤ S636x5.size a
  k1_off2_inb : ∀ i : grid1.Coords, ∀ a, (k1_off2 i) a + S1x1.size a ≤ S636x5.size a
  k1_off3_inb : ∀ i : grid1.Coords, ∀ a, (k1_off3 i) a + S1x1.size a ≤ S636x5.size a
  k1_off4_inb : ∀ i : grid1.Coords, ∀ a, (k1_off4 i) a + S1x1.size a ≤ S636x5.size a
  k1_off5_inb : ∀ i : grid1.Coords, ∀ a, (k1_off5 i) a + S1x1.size a ≤ S636x5.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S651264.size a
  hwx1_0 : ∀ i : grid1.Coords, EltTy.bits .i32 = 32 ∨ (Rect.block (s := S651264) S1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S651264.size a
  hwx1_1 : ∀ i : grid1.Coords, EltTy.bits .i32 = 32 ∨ (Rect.block (s := S651264) S1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10240x128.size a ≤ S10240x128.size a
  hwx1_2 : ∀ i : grid1.Coords, EltTy.bits .bf16 = 32 ∨ (Rect.block (s := S10240x128) S10240x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x10240x128.size a ≤ S2x10240x128.size a
  hwx1_3 : ∀ i : grid1.Coords, EltTy.bits .f32 = 32 ∨ (Rect.block (s := S2x10240x128) S1x10240x128.size (cc1_transform_3 i) (hinb1_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def comparator_i32_i32_d0 : BitVec 32 × BitVec 32 → BitVec 32 × BitVec 32 → BitVec 1 :=
  fun l r =>
    let v2 := IntOp.cmpi .slt l.1 r.1
    v2
def gather_S651264_S651264x1_S651264_n_0_n_n_0_1_1 : GatherDims S651264 S651264x1 S651264 where
  offsetDims := []
  collapsedSliceDims := [0]
  operandBatchingDims := []
  startIndicesBatchingDims := []
  startIndexMap := [0]
  indexVectorDim := 1
  sliceSizes := ![1]
  wf := gather_S651264_S651264x1_S651264_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v36) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_v28) S1024.size reads1_0 false false 2 stage1_0 sem1_0 nbuf1_0 hstage1_0

abbrev spec1_1 : Pipeline.WinSpec sig grid1.rank :=
  Pipeline.WinSpec.ofSpec (Memref.whole main_v35) S1024.size reads1_1 false false 2 stage1_1 sem1_1 nbuf1_1 hstage1_1

abbrev spec1_2 : Pipeline.WinSpec sig grid1.rank :=
  Pipeline.WinSpec.ofSpec (Memref.whole main_v39) S10240x128.size reads1_2 false true 1 stage1_2 sem1_2 nbuf1_2 hstage1_2

abbrev spec1_3 : Pipeline.WinSpec sig grid1.rank :=
  Pipeline.WinSpec.ofSpec (Memref.whole main_v62) S1x10240x128.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | ⟨_ + 4, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | ⟨_ + 4, h⟩ => absurd h (Nat.not_lt.2 (Nat.le_add_left _ _))
abbrev idle1 : Fin 4 → grid1.Coords → Bool := fun | 0 => fun _ => false | 1 => fun _ => false | 2 => fun _ => false | 3 => fun i => !(k1_cond7 i == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S64x128 : Shape := ⟨2, ![64, 128]⟩
abbrev S10000x1 : Shape := ⟨2, ![10000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S10000x128, .f32⟩
  | .hbm, ⟨8, _⟩ => ⟨S10000, .i32⟩
  | .hbm, ⟨9, _⟩ => ⟨S1x640000, .i32⟩
  | .hbm, ⟨10, _⟩ => ⟨S640000, .i32⟩
  | .hbm, ⟨11, _⟩ => ⟨S650000, .i32⟩
  | .hbm, ⟨12, _⟩ => ⟨S1x640000, .i32⟩
  | .hbm, ⟨13, _⟩ => ⟨S640000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S_, .i32⟩
  | .hbm, ⟨42, _⟩ => ⟨S650000, .i32⟩
  | .hbm, ⟨43, _⟩ => ⟨S650000, .i1⟩
  | .hbm, ⟨44, _⟩ => ⟨S_, .i32⟩
  | .hbm, ⟨45, _⟩ => ⟨S650000, .i32⟩
  | .hbm, ⟨46, _⟩ => ⟨S650000, .i32⟩
  | .hbm, ⟨47, _⟩ => ⟨S650000, .i32⟩
  | .hbm, ⟨48, _⟩ => ⟨S650000x1, .i32⟩
  | .hbm, ⟨49, _⟩ => ⟨S650000, .f32⟩
  | .hbm, ⟨50, _⟩ => ⟨S650000, .f32⟩
  | .hbm, ⟨51, _⟩ => ⟨S650000x1, .f32⟩
  | .hbm, ⟨52, _⟩ => ⟨S_, .i32⟩
  | .hbm, ⟨53, _⟩ => ⟨S650000, .i32⟩
  | .hbm, ⟨54, _⟩ => ⟨S650000, .i1⟩
  | .hbm, ⟨55, _⟩ => ⟨S_, .i32⟩
  | .hbm, ⟨56, _⟩ => ⟨S650000, .i32⟩
  | .hbm, ⟨57, _⟩ => ⟨S650000, .i32⟩
  | .hbm, ⟨58, _⟩ => ⟨S650000, .i32⟩
  | .hbm, ⟨59, _⟩ => ⟨S650000x1, .i32⟩
  | .hbm, ⟨60, _⟩ => ⟨S650000x128, .f32⟩
  | .hbm, ⟨61, _⟩ => ⟨S650000x128, .f32⟩
  | .hbm, ⟨62, _⟩ => ⟨S650000x128, .f32⟩
  | .hbm, ⟨63, _⟩ => ⟨S_, .f32⟩
  | .hbm, ⟨64, _⟩ => ⟨S10000x128, .f32⟩
  | .hbm, ⟨65, _⟩ => ⟨S650000x1, .i32⟩
  | .hbm, ⟨66, _⟩ => ⟨S10000x128, .f32⟩
  | .hbm, ⟨67, _⟩ => ⟨S1x128, .f32⟩
  | .hbm, ⟨68, _⟩ => ⟨S10000x128, .f32⟩
  | .hbm, ⟨69, _⟩ => ⟨S10000x128, .f32⟩
  | .hbm, ⟨70, _⟩ => ⟨S_, .f32⟩
  | .hbm, ⟨71, _⟩ => ⟨S10000x128, .f32⟩
  | .hbm, ⟨72, _⟩ => ⟨S10000x128, .f32⟩
  | .hbm, ⟨73, _⟩ => ⟨S_, .f32⟩
  | .hbm, ⟨74, _⟩ => ⟨S64x128, .f32⟩
  | .hbm, ⟨75, _⟩ => ⟨S10000x1, .i32⟩
  | .hbm, ⟨76, _⟩ => ⟨S64x128, .f32⟩
  | .hbm, ⟨77, _⟩ => ⟨S_, .f32⟩
  | .hbm, ⟨78, _⟩ => ⟨S10000, .f32⟩
  | .hbm, ⟨79, _⟩ => ⟨S_, .f32⟩
  | .hbm, ⟨80, _⟩ => ⟨S64, .f32⟩
  | .hbm, ⟨81, _⟩ => ⟨S10000x1, .i32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64x1, .f32⟩
  | .hbm, ⟨87, _⟩ => ⟨S64x128, .f32⟩
  | .hbm, ⟨88, _⟩ => ⟨S64x128, .f32⟩
  | .hbm, ⟨89, _⟩ => ⟨S64x2, .f32⟩
  | .hbm, ⟨90, _⟩ => ⟨S1x2, .f32⟩
  | .hbm, ⟨91, _⟩ => ⟨S64x2, .f32⟩
  | .hbm, ⟨92, _⟩ => ⟨S64x2, .f32⟩
  | .hbm, ⟨93, _⟩ => ⟨S_, .f32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x2, .f32⟩
  | .hbm, ⟨100, _⟩ => ⟨S64x2, .f32⟩
  | .hbm, ⟨101, _⟩ => ⟨S64x2, .f32⟩
  | .hbm, ⟨102, _⟩ => ⟨S_, .f32⟩
  | .hbm, ⟨103, _⟩ => ⟨S64, .f32⟩
  | .hbm, ⟨104, _⟩ => ⟨S64x1, .f32⟩
  | .hbm, ⟨105, _⟩ => ⟨S64x1, .f32⟩
  | .hbm, ⟨106, _⟩ => ⟨S64x2, .f32⟩
  | .hbm, ⟨107, _⟩ => ⟨S64x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_call2_cst_0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_cst_1 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_v66 : Ref sig .tc := ⟨.hbm, 107, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S64x128 : S_.BroadcastsInDim S64x128 (![] : Fin 0 → Fin S64x128.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  dot_S10000x128_S128x128_S10000x128_1_0_0_1_n_n_wf : DotDims.WF S10000x128 S128x128 S10000x128 [1] [0] [0] [1] [] []
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  dot_S64x128_S128x2_S64x2_1_0_0_1_n_n_wf : DotDims.WF S64x128 S128x2 S64x2 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.DenseRegion.lean ====
import proofs.«419665_j81406810129006_3_alg».proof.Proof.Gen.KernelIdeal.Launch
import proofs.«419665_j81406810129006_3_alg».proof.Proof.Gen.KernelIdeal.Skeleton
import proofs.«419665_j81406810129006_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def denseBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev tileAll : Rect S2048x128 := Rect.unit (s := S2048x128) ![0, 0] S2048x128.size inb_S2048x128_S2048x128_0_0
abbrev weightAll : Rect S128x128 := Rect.unit (s := S128x128) ![0, 0] S128x128.size inb_S128x128_S128x128_0_0
abbrev degAll : Rect S2048x1 := Rect.unit (s := S2048x1) ![0, 0] S2048x1.size inb_S2048x1_S2048x1_0_0

def denseOut (x : Vec F S2048x128 .f32) (w : Vec F S128x128 .f32) (d : Vec F S2048x1 .f32) : Vec F S2048x128 .bf16 :=
  View.canon [⟨tileAll, k0_pay1 (View.ld x tileAll) (View.ld w weightAll) (View.ld d degAll)⟩]

/-- A single write over the whole tile leaves its payload at every entry. -/
theorem dense_body (c : Dev nD) (E : Set ℕ) (i : grid0.Coords)
    (bx : Memref sig .tc .vmem S2048x128 .f32) (hbx : bx.IsWhole)
    (bw : Memref sig .tc .vmem S128x128 .f32) (hbw : bw.IsWhole)
    (bd : Memref sig .tc .vmem S2048x1 .f32) (hbd : bd.IsWhole)
    (bo : Memref sig .tc .vmem S2048x128 .bf16) (hbo : bo.IsWhole)
    (x : Vec F S2048x128 .f32) (w : Vec F S128x128 .f32) (d : Vec F S2048x1 .f32) (K : PUnit → sProp 𝕄) :
    iprop(owns (c : Thread nD τ) bx fullShare x ∗ owns (c : Thread nD τ) bw fullShare w
        ∗ owns (c : Thread nD τ) bd fullShare d ∗ (∃ o, owns (c : Thread nD τ) bo fullShare o)
        ∗ (iprop(owns (c : Thread nD τ) bx fullShare x ∗ owns (c : Thread nD τ) bw fullShare w
            ∗ owns (c : Thread nD τ) bd fullShare d ∗ owns (c : Thread nD τ) bo fullShare (denseOut x w d)) -∗ K ⟨⟩))
      ⊢ wp frame (wpE (defs₀ (F := F)) Variants.none c none) E (cc0__matmul_kernel i bx hbx bw hbw bd hbd bo hbo) K := by
  simp only [cc0__matmul_kernel_eq_skeleton]; unfold cc0__matmul_kernel_skel owns
  iintro ⟨⟨%fx, %hfx, Hx⟩, ⟨%fw, %hfw, Hw⟩, ⟨%fd, %hfd, Hd⟩, ⟨%o, %fo, -, Ho⟩, Hk⟩
  subst hfx hfw hfd
  sl_exec
  sl_step
  iapply Hk
  isplitl [Hx]
  · iexists fx; isplitr; · ipureintro; rfl
    iexact Hx
  isplitl [Hw]
  · iexists fw; isplitr; · ipureintro; rfl
    iexact Hw
  isplitl [Hd]
  · iexists fd; isplitr; · ipureintro; rfl
    iexact Hd
  iexists _; isplitr; swap; · iexact Ho
  ipureintro
  exact View.read_writes_eq_canon _ _ _ (View.cover_of_tiled _ S2048x128.size (by rfl))

def denseDat (c : Dev nD) : Dat τ (Elt F) Unit ℕ (UR sig nD τ) ℕ cfg0 c where
  A w := V c (Pipeline.arrRef spec0 w)
  after w t := match w with
    | ⟨0, _⟩ => denseBlk V c 0 t
    | ⟨1, _⟩ => denseBlk V c 1 t
    | ⟨2, _⟩ => denseBlk V c 2 t
    | ⟨3, _⟩ => denseOut (denseBlk V c 0 t) (denseBlk V c 1 t) (denseBlk V c 2 t)
  Φ _ := Pipeline.ΦA spec0 c
  q _ := fullShare
  owed _ := 0

theorem denseDat_after3 (c : Dev nD) (t : Fin cfg0.N) :
    (denseDat V c).after 3 t = denseOut (denseBlk V c 0 t) (denseBlk V c 1 t) (denseBlk V c 2 t) := by dsimp only [denseDat]

theorem denseDat_before (c : Dev nD) (t : Fin cfg0.N) :
    (∀ d, (denseDat V c).before 0 t d = denseBlk V c 0 t) ∧ (∀ d, (denseDat V c).before 1 t d = denseBlk V c 1 t)
      ∧ ∀ d, (denseDat V c).before 2 t d = denseBlk V c 2 t := by
  refine ⟨fun d => ?_, fun d => ?_, fun d => ?_⟩ <;>
    exact (denseDat V c).before_in_eq_fetched _ rfl (fun _ => rfl) (fun _ _ _ => rfl) (fun _ => rfl) t d

theorem denseDat_after (c : Dev nD) (t : Fin cfg0.N) : (denseDat V c).after 0 t = denseBlk V c 0 t
    ∧ (denseDat V c).after 1 t = denseBlk V c 1 t ∧ (denseDat V c).after 2 t = denseBlk V c 2 t := by
  dsimp only [denseDat]; exact ⟨rfl, rfl, rfl⟩

theorem dense_obligation (c : Dev nD) : BodyObligation (denseDat (F := F) V c) (defs₀ (F := F)) Variants.none () Set.univ := fun t => by
  rw [bigSep_W0, bigSep_W0, show (denseDat V c).Φ t.succ = (denseDat V c).Φ t.castSucc from rfl,
    show (denseDat V c).owesAt () t.succ = (denseDat V c).owesAt () t.castSucc from rfl]
  simp only [denseDat_before V c t, denseDat_after V c t, denseDat_after3]
  show _ ⊢ wp _ _ _ (bodyAt0 t) _
  iintro ⟨HΦ, Hdebt, ⟨%d0, Hx⟩, ⟨%d1, Hw⟩, ⟨%d2, Hd⟩, ⟨%d3, Ho⟩⟩
  iapply (dense_body c Set.univ _ _ _ _ _ _ _ _ _ (denseBlk V c 0 t) (denseBlk V c 1 t) (denseBlk V c 2 t) _)
  iframe
  isplitl [Ho]; · iexists _; iexact Ho
  iintro H; iexact H

end Cert.KernelIdeal.Hand

end
-- ==== Proof.MainRun.lean ====
import proofs.«419665_j81406810129006_3_alg».proof.Proof.Gen.KernelIdeal.Launch
import proofs.«419665_j81406810129006_3_alg».proof.Proof.Gen.KernelIdeal.Skeleton
import proofs.«419665_j81406810129006_3_alg».proof.Proof.Gen.KernelIdeal.Points
import proofs.«419665_j81406810129006_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

abbrev Rr (c : Dev nD) : sProp 𝕄 := iprop((∃ r, prngReg c r) ∗ ∃ W, owes (c : Thread nD τ) (0 : CellTallies nD τ sig Unit) W)
abbrev heldR (V : Dev nD → Valuation τ sig (Elt F)) (c : Dev nD) : sProp 𝕄 :=
  iprop(StableHlo.held (c : Thread nD τ) (Pipeline.ucRefs τ sig) (V c) ∗ Rr c)
abbrev L₀ : GSem nD τ sig → Finset Unit := fun _ => ∅
abbrev lv₀ : GSem nD τ sig → Unit → ℕ := fun _ _ => 0

end Cert.KernelIdeal.Hand

end
-- ==== Proof.FusedBody.lean ====
import proofs.«419665_j81406810129006_3_alg».proof.Proof.Gen.KernelIdeal.Launch
import proofs.«419665_j81406810129006_3_alg».proof.Proof.Gen.KernelIdeal.Skeleton
import proofs.«419665_j81406810129006_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev maskM : Memref sig .tc .smem S636x5 .i32 := Memref.whole main_v61
abbrev hmaskM : maskM.IsWhole := Memref.isWhole_whole _
abbrev accM : Memref sig .tc .vmem S10240x128 .f32 := Memref.whole cc1_scratch0
abbrev haccM : accM.IsWhole := Memref.isWhole_whole _

abbrev MaskBuf (c : Dev nD) : Type := Buf (Elt F) (maskM.view.loc (c : Thread nD τ))
abbrev maskPt (c : Dev nD) (f : MaskBuf (F := F) c) : sProp 𝕄 := maskM.view.loc (c : Thread nD τ) ↦{fullShare.right} f
abbrev AccBuf (c : Dev nD) : Type := Buf (Elt F) (accM.view.loc (c : Thread nD τ))
abbrev accPt (c : Dev nD) (f : AccBuf (F := F) c) : sProp 𝕄 := accM.view.loc (c : Thread nD τ) ↦[accM.view.set]{fullShare} f

abbrev isFirst (i : grid1.Coords) : Prop := (Scalar.cmpi .ne (Scalar.extui (Scalar.cmpi .eq (BitVec.ofNat 32 (i 1).val) 0#32)) 0#32) = 1#1
abbrev isLast (i : grid1.Coords) : Prop := k1_cond7 i = 1#1

/-- A guarded block followed in both branches by the same rest is the guarded block, then the rest once. -/
theorem guarded_dup {α β γ : Type} (C : Prop) [Decidable C] (l1 : Prog (TpuEff nD τ sig (Elt F) Λ₀ .tc) β)
    (l2 : β → Prog (TpuEff nD τ sig (Elt F) Λ₀ .tc) γ) (st : β → γ → Prog (TpuEff nD τ sig (Elt F) Λ₀ .tc) PUnit)
    (R : Prog (TpuEff nD τ sig (Elt F) Λ₀ .tc) α) :
    (if C then (do let x ← l1; let y ← l2 x; st x y; R) else R)
      = (do (if C then (do let x ← l1; let y ← l2 x; st x y) else pure ⟨⟩); R) := by
  split
  · simp only [bind_assoc]
  · simp only [pure_bind]

/-- Reading is a bijection on a whole memref's contents, so owning it at `X` is holding the one contents that read `X`. -/
theorem owns_eq_unread {sp : Space} {sh : Shape} {e : EltTy} {M : Memref sig .tc sp sh e} (h : M.IsWhole) (c : Dev nD)
    (q : PosShare TreeShare) (X : sh.Idx → Elt F e) :
    (owns (c : Thread nD τ) M q X : sProp 𝕄) = (M.view.loc (c : Thread nD τ) ↦[M.view.set]{q} h.unread X) := by
  rw [owns_eq_rep, h.eq_unread (View.read_rep _ _)]

abbrev accAll : Rect S10240x128 := Rect.unit (s := S10240x128) ![0, 0] S10240x128.size inb_S10240x128_S10240x128_0_0

def accCleared : Vec F S10240x128 .f32 :=
  accM.view.read (Elt F) (accM.view.writes (Elt F) accM.view.junk [⟨accAll, k1_pay6⟩])

noncomputable def fusedRunMid (c : Dev nD) (i : grid1.Coords)
    (arg3 : Memref sig .tc .vmem S1024 .i32) (harg3 : arg3.IsWhole) (arg4 : Memref sig .tc .vmem S1024 .i32) (harg4 : arg4.IsWhole)
    (arg5 : Memref sig .tc .vmem S10240x128 .bf16) (harg5 : arg5.IsWhole) (arg6 : Memref sig .tc .vmem S1x10240x128 .f32) (harg6 : arg6.IsWhole)
    (hf : ¬ isFirst i) (hl : ¬ isLast i)
    (x3 x4 : Vec F S1024 .i32) (x5 : Vec F S10240x128 .bf16) (xs : Vec F S10240x128 .f32) (xt : MaskBuf (F := F) c) :
    { fN : AccBuf (F := F) c //
      ∀ (x6 : Vec F S1x10240x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) accM fullShare xs ∗ maskPt c xt
            ∗ (iprop(owns (c : Thread nD τ) arg3 fullShare x3 ∗ owns (c : Thread nD τ) arg4 fullShare x4 ∗ owns (c : Thread nD τ) arg5 fullShare x5
                ∗ owns (c : Thread nD τ) arg6 fullShare x6 ∗ accPt c fN ∗ maskPt c xt) -∗ K ⟨⟩))
          ⊢ wp frame (wpE (defs₀ (F := F)) Variants.none c none) E (cc1__fused_kernel i maskM hmaskM arg3 harg3 arg4 harg4 arg5 harg5 arg6 harg6 accM haccM) K } := by
  refine ⟨?_, fun x6 E K => ?run⟩
  case run =>
    simp -proj only [cc1__fused_kernel_eq_skeleton, cc1__fused_kernel_skel, k1_part1_eq_skeleton, k1_part2_eq_skeleton, k1_part2_skel, guarded_dup,
      owns_eq_unread harg3, owns_eq_unread harg4, owns_eq_unread harg5, owns_eq_unread harg6, owns_eq_unread haccM]
    iintro ⟨H3, H4, H5, H6, HS, HT, Hk⟩
    sl_exec! (disch := first | sl_exact hf | sl_exact hl)
    sl_step
    iapply Hk
    iframe H3 H4 H5 H6 HT
    iexact HS

noncomputable def fusedRunFirst (c : Dev nD) (i : grid1.Coords)
    (arg3 : Memref sig .tc .vmem S1024 .i32) (harg3 : arg3.IsWhole) (arg4 : Memref sig .tc .vmem S1024 .i32) (harg4 : arg4.IsWhole)
    (arg5 : Memref sig .tc .vmem S10240x128 .bf16) (harg5 : arg5.IsWhole) (arg6 : Memref sig .tc .vmem S1x10240x128 .f32) (harg6 : arg6.IsWhole)
    (hf : isFirst i) (hl : ¬ isLast i)
    (x3 x4 : Vec F S1024 .i32) (x5 : Vec F S10240x128 .bf16) (xt : MaskBuf (F := F) c) :
    { fN : AccBuf (F := F) c //
      ∀ (x6 : Vec F S1x10240x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ (∃ d, owns (c : Thread nD τ) accM fullShare d) ∗ maskPt c xt
            ∗ (iprop(owns (c : Thread nD τ) arg3 fullShare x3 ∗ owns (c : Thread nD τ) arg4 fullShare x4 ∗ owns (c : Thread nD τ) arg5 fullShare x5
                ∗ owns (c : Thread nD τ) arg6 fullShare x6 ∗ accPt c fN ∗ maskPt c xt) -∗ K ⟨⟩))
          ⊢ wp frame (wpE (defs₀ (F := F)) Variants.none c none) E (cc1__fused_kernel i maskM hmaskM arg3 harg3 arg4 harg4 arg5 harg5 arg6 harg6 accM haccM) K } := by
  refine ⟨?_, fun x6 E K => ?run⟩
  case run =>
    simp -proj only [cc1__fused_kernel_eq_skeleton, cc1__fused_kernel_skel, k1_part1_eq_skeleton, k1_part2_eq_skeleton, k1_part2_skel, guarded_dup,
      owns_eq_unread harg3, owns_eq_unread harg4, owns_eq_unread harg5, owns_eq_unread harg6, owns_eq_unread haccM]
    iintro ⟨H3, H4, H5, H6, ⟨%ds, HS⟩, HT, Hk⟩
    set_option sl_exec.maxSteps 4 in sl_exec (disch := first | sl_exact hf | sl_exact hl)
    rw [show accM.view.writes (Elt F) (haccM.unread ds) [⟨accAll, k1_pay6⟩] = haccM.unread (accCleared (F := F))
      from haccM.eq_unread (View.read_writes_of_cover _ _ _ _ _ (View.cover_of_tiled _ S10240x128.size (by rfl)))]
    sl_exec! (disch := first | sl_exact hf | sl_exact hl)
    sl_step
    iapply Hk
    iframe H3 H4 H5 H6 HT
    iexact HS

noncomputable def fusedRunLast (c : Dev nD) (i : grid1.Coords)
    (arg3 : Memref sig .tc .vmem S1024 .i32) (harg3 : arg3.IsWhole) (arg4 : Memref sig .tc .vmem S1024 .i32) (harg4 : arg4.IsWhole)
    (arg5 : Memref sig .tc .vmem S10240x128 .bf16) (harg5 : arg5.IsWhole) (arg6 : Memref sig .tc .vmem S1x10240x128 .f32) (harg6 : arg6.IsWhole)
    (hf : ¬ isFirst i) (hl : isLast i)
    (x3 x4 : Vec F S1024 .i32) (x5 : Vec F S10240x128 .bf16) (xs : Vec F S10240x128 .f32) (xt : MaskBuf (F := F) c) :
    Σ' (L6 : List (View.Piece (Elt F) S1x10240x128 .f32)), { fN : AccBuf (F := F) c //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) accM fullShare xs ∗ maskPt c xt
            ∗ (iprop(owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ accPt c fN ∗ maskPt c xt) -∗ K ⟨⟩))
          ⊢ wp frame (wpE (defs₀ (F := F)) Variants.none c none) E (cc1__fused_kernel i maskM hmaskM arg3 harg3 arg4 harg4 arg5 harg5 arg6 harg6 accM haccM) K } := by
  refine ⟨?_, ?_, fun E K => ?run⟩
  case run =>
    simp -proj only [cc1__fused_kernel_eq_skeleton, cc1__fused_kernel_skel, k1_part1_eq_skeleton, k1_part2_eq_skeleton, k1_part2_skel, guarded_dup,
      owns_eq_unread harg3, owns_eq_unread harg4, owns_eq_unread harg5, owns_eq_unread harg6, owns_eq_unread haccM]
    iintro ⟨H3, H4, H5, ⟨%d6, H6⟩, HS, HT, Hk⟩
    sl_exec! (disch := first | sl_exact hf | sl_exact hl)
    sl_step
    iapply Hk
    iframe H3 H4 H5 HT
    isplitl [H6]; · iexists _; iexact H6
    iexact HS

end Cert.KernelIdeal.Hand

end
-- ==== Proof.FusedDat.lean ====
import proofs.«419665_j81406810129006_3_alg».proof.Proof.FusedBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def maskTbl : pre1.Contents (Elt F) := fun j => V (0 : Dev nD) (pre1.ref j)
theorem maskTbl_ok : ok1 (F := F) (maskTbl V) := by unfold ok1; trivial
abbrev fusedAdm : (pcfg1 (F := F)).Adm := ⟨maskTbl V, maskTbl_ok V⟩
abbrev cfgF : Pipeline.Cfg sig Λ₀ := cfg1 (fusedAdm V)

abbrev tblAt (c : Dev nD) : MaskBuf (F := F) c := maskTbl V 0

def inBlock (c : Dev nD) (w : Fin (cfgF V).W) (t : Fin (cfgF V).N) :
    (((cfgF V).win w).xblock ((cfgF V).grid.coords t)).Idx → Elt F ((cfgF V).win w).elt :=
  (((cfgF V).win w).blk t).view.read (Elt F) (V c (Pipeline.arrRef spec1 w))

abbrev srcSt (t : Fin (cfgF V).N) : Memref sig .tc .vmem S1024 .i32 := spec1_0.stage ((cfgF V).slots t 0)
abbrev srcSt_whole (t : Fin (cfgF V).N) : (srcSt V t).IsWhole := hstage1_0 (((cfgF V).slots t 0).cast nbuf1_0)
abbrev dstSt (t : Fin (cfgF V).N) : Memref sig .tc .vmem S1024 .i32 := spec1_1.stage ((cfgF V).slots t 1)
abbrev dstSt_whole (t : Fin (cfgF V).N) : (dstSt V t).IsWhole := hstage1_1 (((cfgF V).slots t 1).cast nbuf1_1)
abbrev featSt (t : Fin (cfgF V).N) : Memref sig .tc .vmem S10240x128 .bf16 := spec1_2.stage ((cfgF V).slots t 2)
abbrev featSt_whole (t : Fin (cfgF V).N) : (featSt V t).IsWhole := hstage1_2 (((cfgF V).slots t 2).cast nbuf1_2)
abbrev outSt (t : Fin (cfgF V).N) : Memref sig .tc .vmem S1x10240x128 .f32 := spec1_3.stage ((cfgF V).slots t 3)
abbrev outSt_whole (t : Fin (cfgF V).N) : (outSt V t).IsWhole := hstage1_3 (((cfgF V).slots t 3).cast nbuf1_3)

abbrev fusedAt (t : Fin (cfgF V).N) : Prog (TpuEff nD τ sig (Elt F) Λ₀ .tc) PUnit :=
  cc1__fused_kernel (grid1.coords t) maskM hmaskM (srcSt V t) (srcSt_whole V t) (dstSt V t) (dstSt_whole V t)
    (featSt V t) (featSt_whole V t) (outSt V t) (outSt_whole V t) accM haccM

theorem isFirst_iff : ∀ t : Fin (cfgF V).N, isFirst (grid1.coords t) ↔ t.val % 318 = 0 :=
  (by decide +kernel : ∀ t : Fin grid1.N, isFirst (grid1.coords t) ↔ t.val % 318 = 0)
theorem isLast_iff : ∀ t : Fin (cfgF V).N, isLast (grid1.coords t) ↔ t.val % 318 = 317 :=
  (by decide +kernel : ∀ t : Fin grid1.N, isLast (grid1.coords t) ↔ t.val % 318 = 317)

theorem out_idle : ∀ t : Fin (cfgF V).N, (cfgF V).idle 3 (grid1.coords t) = decide (t.val % 318 ≠ 317) :=
  (by decide +kernel : ∀ t : Fin grid1.N, idle1 3 (grid1.coords t) = decide (t.val % 318 ≠ 317))
theorem out_noFlush : ∀ t : Fin (cfgF V).N, ¬ t.val % 318 = 317 → ((cfgF V).win 3).flush t = false :=
  (by decide +kernel : ∀ t : Fin grid1.N, ¬ t.val % 318 = 317 → Pipeline.Window.flushOf grid1 true cc1_transform_3 t = false)
theorem out_flush : ∀ t : Fin (cfgF V).N, t.val % 318 = 317 → ((cfgF V).win 3).flush t = true :=
  (by decide +kernel : ∀ t : Fin grid1.N, t.val % 318 = 317 → Pipeline.Window.flushOf grid1 true cc1_transform_3 t = true)

/-- The three runs of the body at point 't', by its position modulo 318. -/
abbrev runF (c : Dev nD) (t : Fin (cfgF V).N) (h0 : t.val % 318 = 0) :=
  fusedRunFirst c (grid1.coords t) (srcSt V t) (srcSt_whole V t) (dstSt V t) (dstSt_whole V t) (featSt V t) (featSt_whole V t)
    (outSt V t) (outSt_whole V t) ((isFirst_iff V t).mpr h0) (fun h => by have := (isLast_iff V t).mp h; omega)
    (inBlock V c 0 t) (inBlock V c 1 t) (inBlock V c 2 t) (tblAt V c)
abbrev runM (c : Dev nD) (t : Fin (cfgF V).N) (h0 : ¬ t.val % 318 = 0) (h1 : ¬ t.val % 318 = 317) (prev : AccBuf (F := F) c) :=
  fusedRunMid c (grid1.coords t) (srcSt V t) (srcSt_whole V t) (dstSt V t) (dstSt_whole V t) (featSt V t) (featSt_whole V t)
    (outSt V t) (outSt_whole V t) (fun h => h0 ((isFirst_iff V t).mp h)) (fun h => h1 ((isLast_iff V t).mp h))
    (inBlock V c 0 t) (inBlock V c 1 t) (inBlock V c 2 t) (accM.view.read (Elt F) prev) (tblAt V c)
abbrev runL (c : Dev nD) (t : Fin (cfgF V).N) (h0 : ¬ t.val % 318 = 0) (h1 : t.val % 318 = 317) (prev : AccBuf (F := F) c) :=
  fusedRunLast c (grid1.coords t) (srcSt V t) (srcSt_whole V t) (dstSt V t) (dstSt_whole V t) (featSt V t) (featSt_whole V t)
    (outSt V t) (outSt_whole V t) (fun h => h0 ((isFirst_iff V t).mp h)) ((isLast_iff V t).mpr h1)
    (inBlock V c 0 t) (inBlock V c 1 t) (inBlock V c 2 t) (accM.view.read (Elt F) prev) (tblAt V c)

def accStep (c : Dev nD) (t : Fin (cfgF V).N) (prev : AccBuf (F := F) c) : AccBuf (F := F) c :=
  if h0 : t.val % 318 = 0 then (runF V c t h0).1
  else if h1 : t.val % 318 = 317 then (runL V c t h0 h1 prev).2.1 else (runM V c t h0 h1 prev).1

def accAt (c : Dev nD) : (n : ℕ) → n < (cfgF V).N → AccBuf (F := F) c
  | 0, hn => accStep V c ⟨0, hn⟩ accM.view.junk
  | n + 1, hn => accStep V c ⟨n + 1, hn⟩ (accAt c n (Nat.lt_of_succ_lt hn))

abbrev accBefore (c : Dev nD) (t : Fin (cfgF V).N) : AccBuf (F := F) c :=
  accAt V c (t.val - 1) (Nat.lt_of_le_of_lt (Nat.sub_le _ _) t.isLt)

theorem accAt_first (c : Dev nD) (t : Fin (cfgF V).N) (h0 : t.val % 318 = 0) :
    accAt V c t.val t.isLt =
      (fusedRunFirst c (grid1.coords t) (srcSt V t) (srcSt_whole V t) (dstSt V t) (dstSt_whole V t) (featSt V t) (featSt_whole V t)
        (outSt V t) (outSt_whole V t) ((isFirst_iff V t).mpr h0) (fun h => by have := (isLast_iff V t).mp h; omega)
        (inBlock V c 0 t) (inBlock V c 1 t) (inBlock V c 2 t) (tblAt V c)).1 := by
  obtain ⟨_ | _, _⟩ := t <;> rw [accAt, accStep, dif_pos h0]

/-- Past position 0 the accumulator is the step from what the position before left. -/
theorem accAt_pos (c : Dev nD) : ∀ t : Fin (cfgF V).N, ¬ t.val % 318 = 0 → accAt V c t.val t.isLt = accStep V c t (accBefore V c t)
  | ⟨0, _⟩, h => absurd (Nat.zero_mod _) h
  | ⟨_ + 1, _⟩, _ => rfl

theorem accAt_mid (c : Dev nD) (t : Fin (cfgF V).N) (h0 : ¬ t.val % 318 = 0) (h1 : ¬ t.val % 318 = 317) :
    accAt V c t.val t.isLt =
      (fusedRunMid c (grid1.coords t) (srcSt V t) (srcSt_whole V t) (dstSt V t) (dstSt_whole V t) (featSt V t) (featSt_whole V t)
        (outSt V t) (outSt_whole V t) (fun h => h0 ((isFirst_iff V t).mp h)) (fun h => h1 ((isLast_iff V t).mp h))
        (inBlock V c 0 t) (inBlock V c 1 t) (inBlock V c 2 t) (accM.view.read (Elt F) (accBefore V c t)) (tblAt V c)).1 :=
  (accAt_pos V c t h0).trans ((dif_neg h0).trans (dif_neg h1))

theorem accAt_last (c : Dev nD) (t : Fin (cfgF V).N) (h0 : ¬ t.val % 318 = 0) (h1 : t.val % 318 = 317) :
    accAt V c t.val t.isLt =
      (fusedRunLast c (grid1.coords t) (srcSt V t) (srcSt_whole V t) (dstSt V t) (dstSt_whole V t) (featSt V t) (featSt_whole V t)
        (outSt V t) (outSt_whole V t) (fun h => h0 ((isFirst_iff V t).mp h)) ((isLast_iff V t).mpr h1)
        (inBlock V c 0 t) (inBlock V c 1 t) (inBlock V c 2 t) (accM.view.read (Elt F) (accBefore V c t)) (tblAt V c)).2.1 :=
  (accAt_pos V c t h0).trans ((dif_neg h0).trans (dif_pos h1))

abbrev outView : View sig .tc .vmem S1x10240x128 .f32 := (Memref.whole cc1_stg3_0 : Memref sig .tc .vmem S1x10240x128 .f32).view

def outAt (c : Dev nD) (n : ℕ) (hn : n < (cfgF V).N) : Vec F S1x10240x128 .f32 :=
  if h1 : n % 318 = 317 then
    outView.read (Elt F) (outView.writes (Elt F) outView.junk
      (runL V c ⟨n, hn⟩ (by show ¬ n % 318 = 0; omega) h1 (accBefore V c ⟨n, hn⟩)).1)
  else outView.read (Elt F) outView.junk

/-- What is held beside the accumulator, unopened. -/
def otherScoped (c : Dev nD) : sProp 𝕄 :=
  Pipeline.scopedRestBut spec1 c [cc1_scratch0]

theorem scopedRest_split (c : Dev nD) :
    (Pipeline.scopedRest spec1 c : sProp 𝕄)
      = iprop((∃ d, owns (c : Thread nD τ) accM fullShare d) ∗ otherScoped (F := F) c) := by
  rw [Pipeline.scopedRest_split_of_list spec1 c [cc1_scratch0] (by decide) (by decide)]
  simp only [accM, owns_whole]; rfl

def carried (c : Dev nD) : sProp 𝕄 :=
  iprop(otherScoped (F := F) c ∗ (∃ r, prngReg c r)
    ∗ Pipeline.prefHeld (Ix := Unit) (Name := ℕ) (U := UR sig nD τ) (Lvl := ℕ) pre1 c (fun _ => fullShare.left) (maskTbl V)
    ∗ maskPt c (tblAt V c))

/-- The table held whole is its left half held beside the right half the body reads through. -/
theorem tbl_halves (c : Dev nD) :
    (Pipeline.prefHeld pre1 c (fun _ => fullShare) (maskTbl V) : sProp 𝕄)
      = iprop(Pipeline.prefHeld pre1 c (fun _ => fullShare.left) (maskTbl V)
          ∗ maskPt c (tblAt V c)) := by
  have h := Pipeline.prefHeld_share (τ := τ) (Ix := Unit) (Name := ℕ) (U := UR sig nD τ) (Lvl := ℕ) (Val := Elt F) pre1 c
    (PosShare.mem_left_op_right fullShare) (maskTbl V)
  rw [equiv_iff.mp ⟨h.1, h.2⟩]
  congr 1
  unfold Pipeline.prefHeld
  rw [show (Finset.univ : Finset (Fin 1)) = {(0 : Fin 1)} from by decide, bigSep_singleton]
  rfl

def PhiF (c : Dev nD) : (n : ℕ) → n ≤ (cfgF V).N → sProp 𝕄
  | 0, _ => iprop((∃ d, owns (c : Thread nD τ) accM fullShare d) ∗ carried V c)
  | n + 1, hn => iprop(accPt c (accAt V c n hn) ∗ carried V c)

theorem accPt_owns (c : Dev nD) (f : AccBuf (F := F) c) :
    accPt c f ⊢ (owns (c : Thread nD τ) accM fullShare (accM.view.read (Elt F) f) : sProp 𝕄) := by
  unfold owns
  iintro H; iexists f; isplitr; · ipureintro; rfl
  iexact H

def fusedDat (c : Dev nD) : Dat τ (Elt F) Unit ℕ (UR sig nD τ) ℕ (cfgF V) c where
  A w := V c (Pipeline.arrRef spec1 w)
  after w t := match w with
    | ⟨0, _⟩ => inBlock V c 0 t
    | ⟨1, _⟩ => inBlock V c 1 t
    | ⟨2, _⟩ => inBlock V c 2 t
    | ⟨3, _⟩ => outAt V c t.val t.isLt
  Φ t := PhiF V c t.val (Nat.le_of_lt_succ t.isLt)
  q _ := fullShare
  owed _ := 0

theorem fusedDat_A (c : Dev nD) (w : Fin (cfgF V).W) : (fusedDat V c).A w = V c (Pipeline.arrRef spec1 w) := by
  dsimp only [fusedDat]

/-- The invariant always yields the accumulator at some contents, -/
theorem Phi_any (c : Dev nD) : ∀ t, (fusedDat V c).Φ t ⊢ iprop((∃ d, owns (c : Thread nD τ) accM fullShare d) ∗ carried V c)
  | ⟨0, _⟩ => .rfl
  | ⟨_ + 1, _⟩ => sep_mono_left ((accPt_owns c _).trans (exists_intro _))

/-- and past position 0 at what the step before left. -/
theorem Phi_pos (c : Dev nD) : ∀ t : Fin (cfgF V).N, ¬ t.val % 318 = 0 → (fusedDat V c).Φ t.castSucc
    ⊢ iprop(owns (c : Thread nD τ) accM fullShare (accM.view.read (Elt F) (accBefore V c t)) ∗ carried V c)
  | ⟨0, _⟩, h => absurd (Nat.zero_mod _) h
  | ⟨_ + 1, _⟩, _ => sep_mono_left (accPt_owns c _)

theorem before_in (c : Dev nD) (t : Fin (cfgF V).N) :
    (∀ d, (fusedDat V c).before 0 t d = inBlock V c 0 t) ∧ (∀ d, (fusedDat V c).before 1 t d = inBlock V c 1 t)
      ∧ ∀ d, (fusedDat V c).before 2 t d = inBlock V c 2 t := by
  refine ⟨?_, ?_, ?_⟩ <;>
    exact fun d => ((fusedDat V c).before_in_eq_fetched _ rfl (fun _ => rfl) (fun _ _ _ => rfl) (fun _ => rfl) t d).trans rfl

theorem after_out_last (c : Dev nD) (t : Fin (cfgF V).N) (h0 : ¬ t.val % 318 = 0) (h1 : t.val % 318 = 317) :
    (fusedDat V c).after 3 t = outView.read (Elt F) (outView.writes (Elt F) outView.junk
      (fusedRunLast c (grid1.coords t) (srcSt V t) (srcSt_whole V t) (dstSt V t) (dstSt_whole V t) (featSt V t) (featSt_whole V t)
        (outSt V t) (outSt_whole V t) (fun h => h0 ((isFirst_iff V t).mp h)) ((isLast_iff V t).mpr h1)
        (inBlock V c 0 t) (inBlock V c 1 t) (inBlock V c 2 t) (accM.view.read (Elt F) (accBefore V c t)) (tblAt V c)).1) := by
  dsimp only [fusedDat]; exact dif_pos h1

/-- Except at positions 317 modulo 318 the output block is left as found. -/
theorem out_leaves (c : Dev nD) (t : Fin (cfgF V).N) (h : ¬ t.val % 318 = 317) :
    (fusedDat V c).leavesExact 3 t = iprop(∃ d, owns (c : Thread nD τ) (outSt V t) fullShare ((fusedDat V c).before 3 t d)) :=
  Dat.leavesExact_idle _ 3 t ((out_idle V t).trans (decide_eq_true h)) (out_noFlush V t h)

/-- A step's triple framed into the invariant: what the step leaves alone passes around it, and its ends are weakened. -/
theorem step_frame {c : Dev nD} {e : Prog (TpuEff nD τ sig (Elt F) Λ₀ .tc) PUnit} {α β₀ β₁ β₂ : Type}
    {Φ₀ O A₀ A₁ A₂ S S' R₁ R₂ R₃ T L : sProp 𝕄} {P P' Q : α → sProp 𝕄}
    (run : ∀ x K, iprop(A₀ ∗ A₁ ∗ A₂ ∗ P' x ∗ S ∗ T ∗ (iprop(A₀ ∗ A₁ ∗ A₂ ∗ Q x ∗ S' ∗ T) -∗ K ⟨⟩))
      ⊢ wp frame (wpE (defs₀ (F := F)) Variants.none c none) Set.univ e K)
    (hΦ : Φ₀ ⊢ iprop(S ∗ R₁ ∗ R₂ ∗ R₃ ∗ T)) (hP : ∀ x, P x ⊢ P' x) (hL : ∀ x, Q x ⊢ L) :
    iprop(Φ₀ ∗ O ∗ (∃ _ : β₀, A₀) ∗ (∃ _ : β₁, A₁) ∗ (∃ _ : β₂, A₂) ∗ ∃ x, P x)
      ⊢ wp frame (wpE (defs₀ (F := F)) Variants.none c none) Set.univ e
          fun _ => iprop((S' ∗ R₁ ∗ R₂ ∗ R₃ ∗ T) ∗ O ∗ A₀ ∗ A₁ ∗ A₂ ∗ L) := by
  iintro ⟨HΦ, HO, ⟨%_, H0⟩, ⟨%_, H1⟩, ⟨%_, H2⟩, ⟨%x, H3⟩⟩
  icases hΦ $$ HΦ with ⟨HS, HR1, HR2, HR3, HT⟩
  iapply run x
  iframe H0 H1 H2 HS HT
  isplitl [H3]; · iapply hP; iexact H3
  iintro ⟨H0, H1, H2, H3, HS, HT⟩
  iframe
  iapply hL; iexact H3

set_option maxHeartbeats 4000000 in
/-- The body at any point: its position modulo 318 says which of the three runs applies. -/
theorem fused_sound (c : Dev nD) (t : Fin (cfgF V).N) :
    iprop((fusedDat V c).Φ t.castSucc ∗ (fusedDat V c).owesAt () t.castSucc
      ∗ (∃ d, owns (c : Thread nD τ) (srcSt V t) fullShare ((fusedDat V c).before 0 t d))
      ∗ (∃ d, owns (c : Thread nD τ) (dstSt V t) fullShare ((fusedDat V c).before 1 t d))
      ∗ (∃ d, owns (c : Thread nD τ) (featSt V t) fullShare ((fusedDat V c).before 2 t d))
      ∗ (∃ d, owns (c : Thread nD τ) (outSt V t) fullShare ((fusedDat V c).before 3 t d)))
    ⊢ wp frame (wpE (defs₀ (F := F)) Variants.none c none) Set.univ (fusedAt V t) fun _ =>
      iprop((accPt c (accAt V c t.val t.isLt) ∗ carried V c) ∗ (fusedDat V c).owesAt () t.castSucc
        ∗ owns (c : Thread nD τ) (srcSt V t) fullShare (inBlock V c 0 t)
        ∗ owns (c : Thread nD τ) (dstSt V t) fullShare (inBlock V c 1 t)
        ∗ owns (c : Thread nD τ) (featSt V t) fullShare (inBlock V c 2 t)
        ∗ (fusedDat V c).leavesExact 3 t) := by
  simp only [before_in]
  by_cases h0 : t.val % 318 = 0
  · rw [out_leaves V c t (by omega), accAt_first V c t h0]
    exact step_frame (fun _ K => (runF V c t h0).2 _ _ K) (Phi_any V c _) (fun _ => .rfl) fun _ => by iintro H; iexists _; iexact H
  by_cases h1 : t.val % 318 = 317
  · rw [show (fusedDat V c).leavesExact 3 t = owns (c : Thread nD τ) (outSt V t) fullShare ((fusedDat V c).after 3 t) from by
      unfold Dat.leavesExact; rw [out_idle V t, decide_eq_false (not_not.2 h1)]; rfl, after_out_last V c t h0 h1, accAt_last V c t h0 h1]
    refine step_frame (fun _ K => (runL V c t h0 h1 _).2.2 _ K) (Phi_pos V c t h0) (fun x => exists_intro _) fun _ => ?_
    unfold owns
    iintro ⟨%f, H⟩; iexists _; iframe H
    ipureintro; exact View.read_writes_of_cover _ _ _ _ _ (View.cover_of_tiledL _ S1x10240x128.size (by sl_kernel_rfl))
  · rw [out_leaves V c t h1, accAt_mid V c t h0 h1]
    exact step_frame (fun _ K => (runM V c t h0 h1 _).2 _ _ K) (Phi_pos V c t h0) (fun _ => .rfl) fun _ => by iintro H; iexists _; iexact H

theorem fused_obligation (c : Dev nD) : BodyObligation (fusedDat (F := F) V c) (defs₀ (F := F)) Variants.none () Set.univ := fun t => by
  rw [bigSep_W1, bigSep_W1]
  exact fused_sound V c t

theorem fused_hin (c : Dev nD) :
    iprop((∃ r, prngReg c r) ∗ Pipeline.prefHeld pre1 c (fun _ => fullShare) (maskTbl V) ∗ Pipeline.scopedRest spec1 c)
      ⊢ ((fusedDat V c).Φ 0 : sProp 𝕄) := by
  rw [tbl_halves, scopedRest_split]
  exact sep_assoc.2.trans (sep_comm.1.trans sep_assoc.1)

theorem fused_hout (c : Dev nD) :
    (fusedDat V c).Φ (Fin.last (cfgF V).N)
      ⊢ (iprop(((∃ r, prngReg c r) ∗ Pipeline.prefHeld pre1 c (fun _ => fullShare) (maskTbl V)) ∗ Pipeline.scopedRest spec1 c) : sProp 𝕄) := by
  rw [tbl_halves, scopedRest_split]
  exact (Phi_any V c _).trans (sep_assoc.2.trans sep_comm.1)

end Cert.KernelIdeal.Hand

end
-- ==== Proof.KernelRun.lean ====
import proofs.«419665_j81406810129006_3_alg».proof.Proof.Gen.KernelIdeal.Launch
import proofs.«419665_j81406810129006_3_alg».proof.Proof.Gen.KernelIdeal.Skeleton
import proofs.«419665_j81406810129006_3_alg».proof.Proof.Gen.KernelIdeal.Points
import proofs.«419665_j81406810129006_3_alg».proof.Proof.Gen.KernelIdeal.Regions
import proofs.«419665_j81406810129006_3_alg».proof.Proof.DenseRegion
import proofs.«419665_j81406810129006_3_alg».proof.Proof.MainRun
import proofs.«419665_j81406810129006_3_alg».proof.Proof.FusedDat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev denseIn (c : Dev nD) (b : Ref sig .tc) : Buf (Elt F) ((c : Thread nD τ).loc b) := V9 m c b

def hsOut (c : Dev nD) : Buf (Elt F) ((c : Thread nD τ).loc main_v39) := (denseDat (denseIn m) c).arrAt 3 cfg0.N

abbrev denseLeaves (c : Dev nD) : Valuation τ sig (Elt F) := Function.update (V9 m c) main_v39 (hsOut m c)

abbrev fusedIn (c : Dev nD) (b : Ref sig .tc) : Buf (Elt F) ((c : Thread nD τ).loc b) := StableHlo.after hostOps1 (denseLeaves m c) b

def fusedOut (c : Dev nD) : Buf (Elt F) ((c : Thread nD τ).loc main_v62) := (fusedDat (fusedIn m) c).arrAt 3 (cfgF (fusedIn m)).N

def kOuts : Outs (F := F) := fun _ r c =>
  Function.update (Function.update (V0 m c) main_v39 (hsOut m c)) main_v62 (fusedOut m c) r

theorem kOuts_39 (c : Dev nD) : kOuts m 10 main_v39 c = hsOut m c := by
  unfold kOuts
  rw [Function.update_of_ne (by decide : (Proc.devRef .tc main_v39 : DevRef τ sig) ≠ Proc.devRef .tc main_v62), Function.update_self]

theorem kOuts_62 (c : Dev nD) : kOuts m 12 main_v62 c = fusedOut m c := by
  unfold kOuts
  rw [Function.update_self]

theorem V10_kOuts (c : Dev nD) : V10 m (kOuts m) c = denseLeaves m c :=
  congrArg (Function.update (V9 m c) main_v39) (kOuts_39 m c)
theorem V11_kOuts (c : Dev nD) : V11 m (kOuts m) c = StableHlo.after hostOps1 (denseLeaves m c) :=
  congrArg (StableHlo.after hostOps1) (V10_kOuts m c)
theorem V11_kOuts_apply (c : Dev nD) (b : Ref sig .tc) : V11 m (kOuts m) c b = fusedIn m c b :=
  congrFun (V11_kOuts m c) b

def kAdm : (p : Fin 2) → (pcfgs (F := F) p).Adm
  | ⟨0, _⟩ => cfg0.toPCfg_adm
  | ⟨1, _⟩ => fusedAdm (fusedIn m)

def kDats : (p : Fin 2) → (c : Dev nD) → Dat τ (Elt F) Unit ℕ (UR sig nD τ) ℕ (Pipeline.pin (pcfgs (F := F)) (kAdm m) p) c
  | ⟨0, _⟩ => fun c => denseDat (denseIn m) c
  | ⟨1, _⟩ => fun c => fusedDat (fusedIn m) c

theorem owes_within (c : Dev nD) {B : Set (SemLoc sig × Unit)} (hB : ∀ x, x ∈ B) :
    iprop(∃ W, owes (c : Thread nD τ) (0 : CellTallies nD τ sig Unit) W) ⊢ (Pipeline.owesWithin c 0 B : sProp 𝕄) := by
  iintro ⟨%W, H⟩; iexists W; isplitr; · ipureintro; exact fun x _ => hB x
  iexact H

theorem owes_of_within (c : Dev nD) (B : Set (SemLoc sig × Unit)) :
    (Pipeline.owesWithin c 0 B : sProp 𝕄) ⊢ iprop(∃ W, owes (c : Thread nD τ) (0 : CellTallies nD τ sig Unit) W) := by
  iintro ⟨%W, -, H⟩; iexists W; iexact H

theorem dense_arr_final (c : Dev nD) (w : Fin cfg0.W) :
    (denseDat (denseIn m) c).arrAt w cfg0.N = V10 m (kOuts m) c (Pipeline.arrRef spec0 w) :=
  match w with
  | ⟨3, _⟩ => by
      show hsOut m c = Function.update (V9 m c) main_v39 (kOuts m 10 main_v39 c) main_v39
      rw [Function.update_self, kOuts_39]
  | ⟨0, h⟩ | ⟨1, h⟩ | ⟨2, h⟩ => ((denseDat (denseIn m) c).arrAt_in ⟨_, h⟩ rfl cfg0.N).trans
      (V10_of m (kOuts m) c (Pipeline.arrRef spec0 ⟨_, h⟩) (by decide +revert)).symm

theorem dense_rest_final (c : Dev nD) (b : Ref sig .tc) (hb : b ∉ Finset.univ.image (Pipeline.arrRef spec0)) :
    V10 m (kOuts m) c b = V9 m c b :=
  V10_of m (kOuts m) c b fun h => hb (Finset.mem_image.mpr ⟨3, Finset.mem_univ _, (List.mem_singleton.mp h).symm⟩)

set_option backward.isDefEq.respectTransparency.types false in
def denseSeg : Pipeline.RegionSeg (pcfgs (F := F)) (kAdm m) (kDats m) () defs₀ Variants.none L₀ lv₀ 0 where
  win := (launch0 (F := F)).win.to₀
  block_pos := (launch0 (F := F)).block_pos
  stage_whole := (launch0 (F := F)).stage_whole
  K := PEmpty
  osem k := k.elim
  ho := Pipeline.OwnSemFacts.none _
  hbody c := (dense_obligation (denseIn m) c).loose
  hwaits := Pipeline.hwaits_of_owed_zero _ _ _ _ L₀ lv₀ 0 fun _ _ => rfl
  pre := heldR (V9 m)
  post := heldR (V10 m (kOuts m))
  X c := iprop(∃ r, prngReg c r)
  Y c := iprop(∃ r, prngReg c r)
  Z c := Pipeline.unscopedRest spec0 c (denseIn m c)
  hentry c := by
    rw [Pipeline.ownSems0_none]
    have harrs := Pipeline.arrays_of_unscopedBufs (p := 0) (pcfgs (F := F)) (kAdm m) (kDats m) (launch0 (F := F)).win (launch0 (F := F)).arr_whole c
      ((kDats m 0 c).share_full fun _ => rfl) (denseIn m c) fun _ => rfl
    rw [Pipeline.unscopedBufs_held] at harrs
    iintro ⟨⟨Hbufs, Hreg, Hdebt⟩, -, -⟩
    ihave H := harrs $$ Hbufs
    icases H with ⟨Harr, Hrest⟩
    imodintro
    iframe Harr Hreg Hrest
    isplitr; · unfold Pipeline.prefHeld; rw [show (Finset.univ : Finset (Fin 0)) = ∅ from rfl, BI.bigSep_empty]; iempintro
    iapply (owes_within c fun _ => Or.inl trivial); iexact Hdebt
  hin c := by
    rw [show (kDats m 0 c).Φ 0 = Pipeline.ΦA spec0 c from rfl]; unfold Pipeline.ΦA
    iintro ⟨Hreg, -, Hscoped⟩
    iframe
  hout c := by
    rw [Pipeline.ownSems0_none, show (kDats m 0 c).Φ (Fin.last _) = Pipeline.ΦA spec0 c from rfl]; unfold Pipeline.ΦA
    iintro ⟨Hscoped, Hreg⟩
    iframe; iempintro
  hexit c := by
    have hjoin := Pipeline.unscopedBufs_of_arrays (p := 0) (pcfgs (F := F)) (kAdm m) (launch0 (F := F)).win (launch0 (F := F)).arr_whole c (kDats m) ((kDats m 0 c).share_full fun _ => rfl)
      (denseIn m c) (fun b => V10 m (kOuts m) c b) ((kDats m 0 c).arrAt · cfg0.N) (dense_arr_final m c) (dense_rest_final m c)
    rw [Pipeline.unscopedBufs_held] at hjoin
    iintro ⟨Harr, Hdebt, Hreg, Hrest⟩
    imodintro
    isplitl [Harr Hrest]
    · iapply hjoin; iframe
    isplitl [Hreg]; · iexact Hreg
    iapply owes_of_within; iexact Hdebt

theorem fused_arr_final (c : Dev nD) (w : Fin (cfgF (fusedIn m)).W) :
    (fusedDat (fusedIn m) c).arrAt w (cfgF (fusedIn m)).N = V12 m (kOuts m) c (Pipeline.arrRef spec1 w) :=
  match w with
  | ⟨0, _⟩ => ((fusedDat (fusedIn m) c).arrAt_in 0 rfl _).trans
      ((fusedDat_A (fusedIn m) c 0).trans ((V12_of m (kOuts m) c main_v28 (by decide)).trans (V11_kOuts_apply m c main_v28)).symm)
  | ⟨1, _⟩ => ((fusedDat (fusedIn m) c).arrAt_in 1 rfl _).trans
      ((fusedDat_A (fusedIn m) c 1).trans ((V12_of m (kOuts m) c main_v35 (by decide)).trans (V11_kOuts_apply m c main_v35)).symm)
  | ⟨2, _⟩ => ((fusedDat (fusedIn m) c).arrAt_in 2 rfl _).trans
      ((fusedDat_A (fusedIn m) c 2).trans ((V12_of m (kOuts m) c main_v39 (by decide)).trans (V11_kOuts_apply m c main_v39)).symm)
  | ⟨3, _⟩ => by
      show fusedOut m c = Function.update (V11 m (kOuts m) c) main_v62 (kOuts m 12 main_v62 c) main_v62
      rw [Function.update_self, kOuts_62]

theorem fused_rest_final (c : Dev nD) (b : Ref sig .tc) (hb : b ∉ Finset.univ.image (Pipeline.arrRef spec1)) :
    V12 m (kOuts m) c b = fusedIn m c b :=
  (V12_of m (kOuts m) c b fun h => hb (Finset.mem_image.mpr ⟨3, Finset.mem_univ _, (List.mem_singleton.mp h).symm⟩)).trans
    (V11_kOuts_apply m c b)

theorem maskTbl_here (c : Dev nD) : (fun k => fusedIn m c ((pcfgs (F := F) 1).pre.ref k)) = maskTbl (fusedIn m) := by
  have hc : c = 0 := Subsingleton.elim _ _
  subst hc; unfold maskTbl; rfl

set_option backward.isDefEq.respectTransparency.types false in
def fusedSeg : Pipeline.RegionSeg (pcfgs (F := F)) (kAdm m) (kDats m) () defs₀ Variants.none L₀ lv₀ 1 where
  win := (launch1 (F := F)).win.to₀
  block_pos := (launch1 (F := F)).block_pos
  stage_whole := (launch1 (F := F)).stage_whole
  K := PEmpty
  osem k := k.elim
  ho := Pipeline.OwnSemFacts.none _
  hbody c := (fused_obligation (fusedIn m) c).loose
  hwaits := Pipeline.hwaits_of_owed_zero _ _ _ _ L₀ lv₀ 1 fun _ _ => rfl
  pre := heldR (V11 m (kOuts m))
  post := heldR (V12 m (kOuts m))
  X c := iprop(∃ r, prngReg c r)
  Y c := iprop((∃ r, prngReg c r) ∗ Pipeline.prefHeld pre1 c (fun _ => fullShare) (maskTbl (fusedIn m)))
  Z c := Pipeline.unscopedRestP pre1 spec1 c (fusedIn m c)
  hentry c := by
    unfold heldR; rw [Pipeline.ownSems0_none, V11_kOuts]
    have harrs := Pipeline.arrays_of_unscopedBufs (p := 1) (pcfgs (F := F)) (kAdm m) (kDats m) (launch1 (F := F)).win (launch1 (F := F)).arr_whole c
      ((kDats m 1 c).share_full fun _ => rfl) (fusedIn m c) fun w => fusedDat_A (fusedIn m) c w
    rw [Pipeline.unscopedBufs_held, Pipeline.unscopedRest_split (launch1 (F := F)).pre c (fusedIn m c), maskTbl_here m c] at harrs
    iintro ⟨⟨Hbufs, Hreg, Hdebt⟩, -, -⟩
    ihave H := harrs $$ Hbufs
    icases H with ⟨Harr, Htbl, Hrest⟩
    imodintro
    iframe Harr Hreg Hrest
    isplitl [Htbl]; · iexact Htbl
    iapply (owes_within c fun _ => Or.inl trivial); iexact Hdebt
  hin c := fused_hin (fusedIn m) c
  hout c := by
    rw [Pipeline.ownSems0_none]
    refine (fused_hout (fusedIn m) c).trans ?_
    iintro ⟨HY, Hscoped⟩
    iframe; iempintro
  hexit c := by
    have hjoin := Pipeline.unscopedBufs_of_arrays (p := 1) (pcfgs (F := F)) (kAdm m) (launch1 (F := F)).win (launch1 (F := F)).arr_whole c (kDats m) ((kDats m 1 c).share_full fun _ => rfl)
      (fusedIn m c) (fun b => V12 m (kOuts m) c b) ((kDats m 1 c).arrAt · (cfgF (fusedIn m)).N) (fused_arr_final m c) (fused_rest_final m c)
    rw [Pipeline.unscopedBufs_held, Pipeline.unscopedRest_split (launch1 (F := F)).pre c (fusedIn m c), maskTbl_here m c] at hjoin
    iintro ⟨Harr, Hdebt, ⟨Hreg, Htbl⟩, Hrest⟩
    imodintro
    isplitl [Harr Htbl Hrest]
    · iapply hjoin; iframe
    isplitl [Hreg]; · iexact Hreg
    iapply owes_of_within; iexact Hdebt

set_option backward.isDefEq.respectTransparency.types false in
theorem kernel_run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V16 m (kOuts m) c b) := by
  refine Pipeline.θ_run_regions_kit_dev (pcfgs (F := F)) (kAdm m) (kDats m) () (cellOf_inj _) emb₁ defs₀ Variants.none L₀ lv₀ m ρ main
    (segs m (kOuts m) Variants.none L₀ lv₀ (fun _ => Rr) () (kAdm m) (kDats m) (denseSeg m) (fusedSeg m))
    (fun c Q => by rewrite [main_chain c, Pipeline.Seg.run_eq_chain]; exact .rfl)
    (fun c => by simp only [segs, Pipeline.Seg.pipes_host, Pipeline.Seg.pipes_region, Pipeline.Seg.pipes_nil]; decide)
    0 (fun _ _ => rfl) (fun _ => BI.emp) ?u ?hu (T₀ := heldR (V0 m))
    (Tₙ := fun c => StableHlo.held (c : Thread nD τ) (Pipeline.ucRefs τ sig) (V16 m (kOuts m) c))
    (hch := fun c => ⟨.rfl, .rfl, .rfl, .rfl, .rfl, .rfl, .rfl, .rfl, .rfl, .rfl, .rfl, .rfl, .rfl, .rfl, .rfl, .rfl, sep_mono .rfl sep_elim_right⟩)
    (hinit := Pipeline.initEach L₀ lv₀ fun c => ?_)
    (QY := fun c s => ∀ b ∈ Pipeline.ucRefs τ sig, s.mem (((c : Thread nD τ)).1, b) = V16 m (kOuts m) c b)
    (hfin := fun c s' => ?_) (hQ := fun _ h => h)
  case hu =>
    rw [BI.bigSep_emp_const]; unfold ownU emb₁
    iintro Hu; imodintro
    isplitl [Hu]; · iexact Hu
    iempintro
  · unfold heldR
    rw [← Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro H; imodintro
    iapply (pointsTo_read_all (Pipeline.ucRefs τ sig) (fun b => (((c : Thread nD τ)).1, b)) (V16 m (kOuts m) c) s')
    iexact H

end Cert.KernelIdeal.Hand

end
-- ==== Proof.DenseRegionW.lean ====
import proofs.«419665_j81406810129006_3_alg».proof.Proof.Gen.Kernel.Launch
import proofs.«419665_j81406810129006_3_alg».proof.Proof.Gen.Kernel.Skeleton
import proofs.«419665_j81406810129006_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def denseBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev tileAll : Rect S2048x128 := Rect.unit (s := S2048x128) ![0, 0] S2048x128.size inb_S2048x128_S2048x128_0_0
abbrev weightAll : Rect S128x128 := Rect.unit (s := S128x128) ![0, 0] S128x128.size inb_S128x128_S128x128_0_0
abbrev degAll : Rect S2048x1 := Rect.unit (s := S2048x1) ![0, 0] S2048x1.size inb_S2048x1_S2048x1_0_0

def denseOut (x : Vec F S2048x128 .f32) (w : Vec F S128x128 .f32) (d : Vec F S2048x1 .f32) : Vec F S2048x128 .bf16 :=
  View.canon [⟨tileAll, k0_pay1 (View.ld x tileAll) (View.ld w weightAll) (View.ld d degAll)⟩]

/-- A single write over the whole tile leaves its payload at every entry. -/
theorem dense_body (c : Dev nD) (E : Set ℕ) (i : grid0.Coords)
    (bx : Memref sig .tc .vmem S2048x128 .f32) (hbx : bx.IsWhole)
    (bw : Memref sig .tc .vmem S128x128 .f32) (hbw : bw.IsWhole)
    (bd : Memref sig .tc .vmem S2048x1 .f32) (hbd : bd.IsWhole)
    (bo : Memref sig .tc .vmem S2048x128 .bf16) (hbo : bo.IsWhole)
    (x : Vec F S2048x128 .f32) (w : Vec F S128x128 .f32) (d : Vec F S2048x1 .f32) (K : PUnit → sProp 𝕄) :
    iprop(owns (c : Thread nD τ) bx fullShare x ∗ owns (c : Thread nD τ) bw fullShare w
        ∗ owns (c : Thread nD τ) bd fullShare d ∗ (∃ o, owns (c : Thread nD τ) bo fullShare o)
        ∗ (iprop(owns (c : Thread nD τ) bx fullShare x ∗ owns (c : Thread nD τ) bw fullShare w
            ∗ owns (c : Thread nD τ) bd fullShare d ∗ owns (c : Thread nD τ) bo fullShare (denseOut x w d)) -∗ K ⟨⟩))
      ⊢ wp frame (wpE (defs₀ (F := F)) Variants.none c none) E (cc0__matmul_kernel i bx hbx bw hbw bd hbd bo hbo) K := by
  simp only [cc0__matmul_kernel_eq_skeleton]; unfold cc0__matmul_kernel_skel owns
  iintro ⟨⟨%fx, %hfx, Hx⟩, ⟨%fw, %hfw, Hw⟩, ⟨%fd, %hfd, Hd⟩, ⟨%o, %fo, -, Ho⟩, Hk⟩
  subst hfx hfw hfd
  sl_exec
  sl_step
  iapply Hk
  isplitl [Hx]
  · iexists fx; isplitr; · ipureintro; rfl
    iexact Hx
  isplitl [Hw]
  · iexists fw; isplitr; · ipureintro; rfl
    iexact Hw
  isplitl [Hd]
  · iexists fd; isplitr; · ipureintro; rfl
    iexact Hd
  iexists _; isplitr; swap; · iexact Ho
  ipureintro
  exact View.read_writes_eq_canon _ _ _ (View.cover_of_tiled _ S2048x128.size (by rfl))

def denseDat (c : Dev nD) : Dat τ (Elt F) Unit ℕ (UR sig nD τ) ℕ cfg0 c where
  A w := V c (Pipeline.arrRef spec0 w)
  after w t := match w with
    | ⟨0, _⟩ => denseBlk V c 0 t
    | ⟨1, _⟩ => denseBlk V c 1 t
    | ⟨2, _⟩ => denseBlk V c 2 t
    | ⟨3, _⟩ => denseOut (denseBlk V c 0 t) (denseBlk V c 1 t) (denseBlk V c 2 t)
  Φ _ := Pipeline.ΦA spec0 c
  q _ := fullShare
  owed _ := 0

theorem denseDat_after3 (c : Dev nD) (t : Fin cfg0.N) :
    (denseDat V c).after 3 t = denseOut (denseBlk V c 0 t) (denseBlk V c 1 t) (denseBlk V c 2 t) := by dsimp only [denseDat]

theorem denseDat_before (c : Dev nD) (t : Fin cfg0.N) :
    (∀ d, (denseDat V c).before 0 t d = denseBlk V c 0 t) ∧ (∀ d, (denseDat V c).before 1 t d = denseBlk V c 1 t)
      ∧ ∀ d, (denseDat V c).before 2 t d = denseBlk V c 2 t := by
  refine ⟨fun d => ?_, fun d => ?_, fun d => ?_⟩ <;>
    exact (denseDat V c).before_in_eq_fetched _ rfl (fun _ => rfl) (fun _ _ _ => rfl) (fun _ => rfl) t d

theorem denseDat_after (c : Dev nD) (t : Fin cfg0.N) : (denseDat V c).after 0 t = denseBlk V c 0 t
    ∧ (denseDat V c).after 1 t = denseBlk V c 1 t ∧ (denseDat V c).after 2 t = denseBlk V c 2 t := by
  dsimp only [denseDat]; exact ⟨rfl, rfl, rfl⟩

theorem dense_obligation (c : Dev nD) : BodyObligation (denseDat (F := F) V c) (defs₀ (F := F)) Variants.none () Set.univ := fun t => by
  rw [bigSep_W0, bigSep_W0, show (denseDat V c).Φ t.succ = (denseDat V c).Φ t.castSucc from rfl,
    show (denseDat V c).owesAt () t.succ = (denseDat V c).owesAt () t.castSucc from rfl]
  simp only [denseDat_before V c t, denseDat_after V c t, denseDat_after3]
  show _ ⊢ wp _ _ _ (bodyAt0 t) _
  iintro ⟨HΦ, Hdebt, ⟨%d0, Hx⟩, ⟨%d1, Hw⟩, ⟨%d2, Hd⟩, ⟨%d3, Ho⟩⟩
  iapply (dense_body c Set.univ _ _ _ _ _ _ _ _ _ (denseBlk V c 0 t) (denseBlk V c 1 t) (denseBlk V c 2 t) _)
  iframe
  isplitl [Ho]; · iexists _; iexact Ho
  iintro H; iexact H

end Cert.Kernel.Hand

end
-- ==== Proof.MainRunW.lean ====
import proofs.«419665_j81406810129006_3_alg».proof.Proof.Gen.Kernel.Launch
import proofs.«419665_j81406810129006_3_alg».proof.Proof.Gen.Kernel.Skeleton
import proofs.«419665_j81406810129006_3_alg».proof.Proof.Gen.Kernel.Points
import proofs.«419665_j81406810129006_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

abbrev Rr (c : Dev nD) : sProp 𝕄 := iprop((∃ r, prngReg c r) ∗ ∃ W, owes (c : Thread nD τ) (0 : CellTallies nD τ sig Unit) W)
abbrev heldR (V : Dev nD → Valuation τ sig (Elt F)) (c : Dev nD) : sProp 𝕄 :=
  iprop(StableHlo.held (c : Thread nD τ) (Pipeline.ucRefs τ sig) (V c) ∗ Rr c)
abbrev L₀ : GSem nD τ sig → Finset Unit := fun _ => ∅
abbrev lv₀ : GSem nD τ sig → Unit → ℕ := fun _ _ => 0

end Cert.Kernel.Hand

end
-- ==== Proof.FusedBodyW.lean ====
import proofs.«419665_j81406810129006_3_alg».proof.Proof.Gen.Kernel.Launch
import proofs.«419665_j81406810129006_3_alg».proof.Proof.Gen.Kernel.Skeleton
import proofs.«419665_j81406810129006_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev maskM : Memref sig .tc .smem S636x5 .i32 := Memref.whole main_v61
abbrev hmaskM : maskM.IsWhole := Memref.isWhole_whole _
abbrev accM : Memref sig .tc .vmem S10240x128 .f32 := Memref.whole cc1_scratch0
abbrev haccM : accM.IsWhole := Memref.isWhole_whole _

abbrev MaskBuf (c : Dev nD) : Type := Buf (Elt F) (maskM.view.loc (c : Thread nD τ))
abbrev maskPt (c : Dev nD) (f : MaskBuf (F := F) c) : sProp 𝕄 := maskM.view.loc (c : Thread nD τ) ↦{fullShare.right} f
abbrev AccBuf (c : Dev nD) : Type := Buf (Elt F) (accM.view.loc (c : Thread nD τ))
abbrev accPt (c : Dev nD) (f : AccBuf (F := F) c) : sProp 𝕄 := accM.view.loc (c : Thread nD τ) ↦[accM.view.set]{fullShare} f

abbrev isFirst (i : grid1.Coords) : Prop := (Scalar.cmpi .ne (Scalar.extui (Scalar.cmpi .eq (BitVec.ofNat 32 (i 1).val) 0#32)) 0#32) = 1#1
abbrev isLast (i : grid1.Coords) : Prop := k1_cond7 i = 1#1

/-- A guarded block followed in both branches by the same rest is the guarded block, then the rest once. -/
theorem guarded_dup {α β γ : Type} (C : Prop) [Decidable C] (l1 : Prog (TpuEff nD τ sig (Elt F) Λ₀ .tc) β)
    (l2 : β → Prog (TpuEff nD τ sig (Elt F) Λ₀ .tc) γ) (st : β → γ → Prog (TpuEff nD τ sig (Elt F) Λ₀ .tc) PUnit)
    (R : Prog (TpuEff nD τ sig (Elt F) Λ₀ .tc) α) :
    (if C then (do let x ← l1; let y ← l2 x; st x y; R) else R)
      = (do (if C then (do let x ← l1; let y ← l2 x; st x y) else pure ⟨⟩); R) := by
  split
  · simp only [bind_assoc]
  · simp only [pure_bind]

/-- Reading is a bijection on a whole memref's contents, so owning it at `X` is holding the one contents that read `X`. -/
theorem owns_eq_unread {sp : Space} {sh : Shape} {e : EltTy} {M : Memref sig .tc sp sh e} (h : M.IsWhole) (c : Dev nD)
    (q : PosShare TreeShare) (X : sh.Idx → Elt F e) :
    (owns (c : Thread nD τ) M q X : sProp 𝕄) = (M.view.loc (c : Thread nD τ) ↦[M.view.set]{q} h.unread X) := by
  rw [owns_eq_rep, h.eq_unread (View.read_rep _ _)]

abbrev accAll : Rect S10240x128 := Rect.unit (s := S10240x128) ![0, 0] S10240x128.size inb_S10240x128_S10240x128_0_0

def accCleared : Vec F S10240x128 .f32 :=
  accM.view.read (Elt F) (accM.view.writes (Elt F) accM.view.junk [⟨accAll, k1_pay6⟩])

noncomputable def fusedRunMid (c : Dev nD) (i : grid1.Coords)
    (arg3 : Memref sig .tc .vmem S1024 .i32) (harg3 : arg3.IsWhole) (arg4 : Memref sig .tc .vmem S1024 .i32) (harg4 : arg4.IsWhole)
    (arg5 : Memref sig .tc .vmem S10240x128 .bf16) (harg5 : arg5.IsWhole) (arg6 : Memref sig .tc .vmem S1x10240x128 .f32) (harg6 : arg6.IsWhole)
    (hf : ¬ isFirst i) (hl : ¬ isLast i)
    (x3 x4 : Vec F S1024 .i32) (x5 : Vec F S10240x128 .bf16) (xs : Vec F S10240x128 .f32) (xt : MaskBuf (F := F) c) :
    { fN : AccBuf (F := F) c //
      ∀ (x6 : Vec F S1x10240x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) accM fullShare xs ∗ maskPt c xt
            ∗ (iprop(owns (c : Thread nD τ) arg3 fullShare x3 ∗ owns (c : Thread nD τ) arg4 fullShare x4 ∗ owns (c : Thread nD τ) arg5 fullShare x5
                ∗ owns (c : Thread nD τ) arg6 fullShare x6 ∗ accPt c fN ∗ maskPt c xt) -∗ K ⟨⟩))
          ⊢ wp frame (wpE (defs₀ (F := F)) Variants.none c none) E (cc1__fused_kernel i maskM hmaskM arg3 harg3 arg4 harg4 arg5 harg5 arg6 harg6 accM haccM) K } := by
  refine ⟨?_, fun x6 E K => ?run⟩
  case run =>
    simp -proj only [cc1__fused_kernel_eq_skeleton, cc1__fused_kernel_skel, k1_part1_eq_skeleton, k1_part2_eq_skeleton, k1_part2_skel, guarded_dup,
      owns_eq_unread harg3, owns_eq_unread harg4, owns_eq_unread harg5, owns_eq_unread harg6, owns_eq_unread haccM]
    iintro ⟨H3, H4, H5, H6, HS, HT, Hk⟩
    sl_exec! (disch := first | sl_exact hf | sl_exact hl)
    sl_step
    iapply Hk
    iframe H3 H4 H5 H6 HT
    iexact HS

noncomputable def fusedRunFirst (c : Dev nD) (i : grid1.Coords)
    (arg3 : Memref sig .tc .vmem S1024 .i32) (harg3 : arg3.IsWhole) (arg4 : Memref sig .tc .vmem S1024 .i32) (harg4 : arg4.IsWhole)
    (arg5 : Memref sig .tc .vmem S10240x128 .bf16) (harg5 : arg5.IsWhole) (arg6 : Memref sig .tc .vmem S1x10240x128 .f32) (harg6 : arg6.IsWhole)
    (hf : isFirst i) (hl : ¬ isLast i)
    (x3 x4 : Vec F S1024 .i32) (x5 : Vec F S10240x128 .bf16) (xt : MaskBuf (F := F) c) :
    { fN : AccBuf (F := F) c //
      ∀ (x6 : Vec F S1x10240x128 .f32) (E : Set ℕ) (K : PUnit → sProp 𝕄),
        iprop(owns (c : Thread nD τ) arg3 fullShare x3 ∗ owns (c : Thread nD τ) arg4 fullShare x4 ∗ owns (c : Thread nD τ) arg5 fullShare x5
            ∗ owns (c : Thread nD τ) arg6 fullShare x6 ∗ (∃ d, owns (c : Thread nD τ) accM fullShare d) ∗ maskPt c xt
            ∗ (iprop(owns (c : Thread nD τ) arg3 fullShare x3 ∗ owns (c : Thread nD τ) arg4 fullShare x4 ∗ owns (c : Thread nD τ) arg5 fullShare x5
                ∗ owns (c : Thread nD τ) arg6 fullShare x6 ∗ accPt c fN ∗ maskPt c xt) -∗ K ⟨⟩))
          ⊢ wp frame (wpE (defs₀ (F := F)) Variants.none c none) E (cc1__fused_kernel i maskM hmaskM arg3 harg3 arg4 harg4 arg5 harg5 arg6 harg6 accM haccM) K } := by
  refine ⟨?_, fun x6 E K => ?run⟩
  case run =>
    simp -proj only [cc1__fused_kernel_eq_skeleton, cc1__fused_kernel_skel, k1_part1_eq_skeleton, k1_part2_eq_skeleton, k1_part2_skel, guarded_dup,
      owns_eq_unread harg3, owns_eq_unread harg4, owns_eq_unread harg5, owns_eq_unread harg6, owns_eq_unread haccM]
    iintro ⟨H3, H4, H5, H6, ⟨%ds, HS⟩, HT, Hk⟩
    set_option sl_exec.maxSteps 4 in sl_exec (disch := first | sl_exact hf | sl_exact hl)
    rw [show accM.view.writes (Elt F) (haccM.unread ds) [⟨accAll, k1_pay6⟩] = haccM.unread (accCleared (F := F))
      from haccM.eq_unread (View.read_writes_of_cover _ _ _ _ _ (View.cover_of_tiled _ S10240x128.size (by rfl)))]
    sl_exec! (disch := first | sl_exact hf | sl_exact hl)
    sl_step
    iapply Hk
    iframe H3 H4 H5 H6 HT
    iexact HS

noncomputable def fusedRunLast (c : Dev nD) (i : grid1.Coords)
    (arg3 : Memref sig .tc .vmem S1024 .i32) (harg3 : arg3.IsWhole) (arg4 : Memref sig .tc .vmem S1024 .i32) (harg4 : arg4.IsWhole)
    (arg5 : Memref sig .tc .vmem S10240x128 .bf16) (harg5 : arg5.IsWhole) (arg6 : Memref sig .tc .vmem S1x10240x128 .f32) (harg6 : arg6.IsWhole)
    (hf : ¬ isFirst i) (hl : isLast i)
    (x3 x4 : Vec F S1024 .i32) (x5 : Vec F S10240x128 .bf16) (xs : Vec F S10240x128 .f32) (xt : MaskBuf (F := F) c) :
    Σ' (L6 : List (View.Piece (Elt F) S1x10240x128 .f32)), { fN : AccBuf (F := F) c //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) accM fullShare xs ∗ maskPt c xt
            ∗ (iprop(owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ accPt c fN ∗ maskPt c xt) -∗ K ⟨⟩))
          ⊢ wp frame (wpE (defs₀ (F := F)) Variants.none c none) E (cc1__fused_kernel i maskM hmaskM arg3 harg3 arg4 harg4 arg5 harg5 arg6 harg6 accM haccM) K } := by
  refine ⟨?_, ?_, fun E K => ?run⟩
  case run =>
    simp -proj only [cc1__fused_kernel_eq_skeleton, cc1__fused_kernel_skel, k1_part1_eq_skeleton, k1_part2_eq_skeleton, k1_part2_skel, guarded_dup,
      owns_eq_unread harg3, owns_eq_unread harg4, owns_eq_unread harg5, owns_eq_unread harg6, owns_eq_unread haccM]
    iintro ⟨H3, H4, H5, ⟨%d6, H6⟩, HS, HT, Hk⟩
    sl_exec! (disch := first | sl_exact hf | sl_exact hl)
    sl_step
    iapply Hk
    iframe H3 H4 H5 HT
    isplitl [H6]; · iexists _; iexact H6
    iexact HS

end Cert.Kernel.Hand

end
-- ==== Proof.FusedDatW.lean ====
import proofs.«419665_j81406810129006_3_alg».proof.Proof.FusedBodyW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def maskTbl : pre1.Contents (Elt F) := fun j => V (0 : Dev nD) (pre1.ref j)
theorem maskTbl_ok : ok1 (F := F) (maskTbl V) := by unfold ok1; trivial
abbrev fusedAdm : (pcfg1 (F := F)).Adm := ⟨maskTbl V, maskTbl_ok V⟩
abbrev cfgF : Pipeline.Cfg sig Λ₀ := cfg1 (fusedAdm V)

abbrev tblAt (c : Dev nD) : MaskBuf (F := F) c := maskTbl V 0

def inBlock (c : Dev nD) (w : Fin (cfgF V).W) (t : Fin (cfgF V).N) :
    (((cfgF V).win w).xblock ((cfgF V).grid.coords t)).Idx → Elt F ((cfgF V).win w).elt :=
  (((cfgF V).win w).blk t).view.read (Elt F) (V c (Pipeline.arrRef spec1 w))

abbrev srcSt (t : Fin (cfgF V).N) : Memref sig .tc .vmem S1024 .i32 := spec1_0.stage ((cfgF V).slots t 0)
abbrev srcSt_whole (t : Fin (cfgF V).N) : (srcSt V t).IsWhole := hstage1_0 (((cfgF V).slots t 0).cast nbuf1_0)
abbrev dstSt (t : Fin (cfgF V).N) : Memref sig .tc .vmem S1024 .i32 := spec1_1.stage ((cfgF V).slots t 1)
abbrev dstSt_whole (t : Fin (cfgF V).N) : (dstSt V t).IsWhole := hstage1_1 (((cfgF V).slots t 1).cast nbuf1_1)
abbrev featSt (t : Fin (cfgF V).N) : Memref sig .tc .vmem S10240x128 .bf16 := spec1_2.stage ((cfgF V).slots t 2)
abbrev featSt_whole (t : Fin (cfgF V).N) : (featSt V t).IsWhole := hstage1_2 (((cfgF V).slots t 2).cast nbuf1_2)
abbrev outSt (t : Fin (cfgF V).N) : Memref sig .tc .vmem S1x10240x128 .f32 := spec1_3.stage ((cfgF V).slots t 3)
abbrev outSt_whole (t : Fin (cfgF V).N) : (outSt V t).IsWhole := hstage1_3 (((cfgF V).slots t 3).cast nbuf1_3)

abbrev fusedAt (t : Fin (cfgF V).N) : Prog (TpuEff nD τ sig (Elt F) Λ₀ .tc) PUnit :=
  cc1__fused_kernel (grid1.coords t) maskM hmaskM (srcSt V t) (srcSt_whole V t) (dstSt V t) (dstSt_whole V t)
    (featSt V t) (featSt_whole V t) (outSt V t) (outSt_whole V t) accM haccM

theorem isFirst_iff : ∀ t : Fin (cfgF V).N, isFirst (grid1.coords t) ↔ t.val % 318 = 0 :=
  (by decide +kernel : ∀ t : Fin grid1.N, isFirst (grid1.coords t) ↔ t.val % 318 = 0)
theorem isLast_iff : ∀ t : Fin (cfgF V).N, isLast (grid1.coords t) ↔ t.val % 318 = 317 :=
  (by decide +kernel : ∀ t : Fin grid1.N, isLast (grid1.coords t) ↔ t.val % 318 = 317)

theorem out_idle : ∀ t : Fin (cfgF V).N, (cfgF V).idle 3 (grid1.coords t) = decide (t.val % 318 ≠ 317) :=
  (by decide +kernel : ∀ t : Fin grid1.N, idle1 3 (grid1.coords t) = decide (t.val % 318 ≠ 317))
theorem out_noFlush : ∀ t : Fin (cfgF V).N, ¬ t.val % 318 = 317 → ((cfgF V).win 3).flush t = false :=
  (by decide +kernel : ∀ t : Fin grid1.N, ¬ t.val % 318 = 317 → Pipeline.Window.flushOf grid1 true cc1_transform_3 t = false)
theorem out_flush : ∀ t : Fin (cfgF V).N, t.val % 318 = 317 → ((cfgF V).win 3).flush t = true :=
  (by decide +kernel : ∀ t : Fin grid1.N, t.val % 318 = 317 → Pipeline.Window.flushOf grid1 true cc1_transform_3 t = true)

/-- The three runs of the body at point 't', by its position modulo 318. -/
abbrev runF (c : Dev nD) (t : Fin (cfgF V).N) (h0 : t.val % 318 = 0) :=
  fusedRunFirst c (grid1.coords t) (srcSt V t) (srcSt_whole V t) (dstSt V t) (dstSt_whole V t) (featSt V t) (featSt_whole V t)
    (outSt V t) (outSt_whole V t) ((isFirst_iff V t).mpr h0) (fun h => by have := (isLast_iff V t).mp h; omega)
    (inBlock V c 0 t) (inBlock V c 1 t) (inBlock V c 2 t) (tblAt V c)
abbrev runM (c : Dev nD) (t : Fin (cfgF V).N) (h0 : ¬ t.val % 318 = 0) (h1 : ¬ t.val % 318 = 317) (prev : AccBuf (F := F) c) :=
  fusedRunMid c (grid1.coords t) (srcSt V t) (srcSt_whole V t) (dstSt V t) (dstSt_whole V t) (featSt V t) (featSt_whole V t)
    (outSt V t) (outSt_whole V t) (fun h => h0 ((isFirst_iff V t).mp h)) (fun h => h1 ((isLast_iff V t).mp h))
    (inBlock V c 0 t) (inBlock V c 1 t) (inBlock V c 2 t) (accM.view.read (Elt F) prev) (tblAt V c)
abbrev runL (c : Dev nD) (t : Fin (cfgF V).N) (h0 : ¬ t.val % 318 = 0) (h1 : t.val % 318 = 317) (prev : AccBuf (F := F) c) :=
  fusedRunLast c (grid1.coords t) (srcSt V t) (srcSt_whole V t) (dstSt V t) (dstSt_whole V t) (featSt V t) (featSt_whole V t)
    (outSt V t) (outSt_whole V t) (fun h => h0 ((isFirst_iff V t).mp h)) ((isLast_iff V t).mpr h1)
    (inBlock V c 0 t) (inBlock V c 1 t) (inBlock V c 2 t) (accM.view.read (Elt F) prev) (tblAt V c)

def accStep (c : Dev nD) (t : Fin (cfgF V).N) (prev : AccBuf (F := F) c) : AccBuf (F := F) c :=
  if h0 : t.val % 318 = 0 then (runF V c t h0).1
  else if h1 : t.val % 318 = 317 then (runL V c t h0 h1 prev).2.1 else (runM V c t h0 h1 prev).1

def accAt (c : Dev nD) : (n : ℕ) → n < (cfgF V).N → AccBuf (F := F) c
  | 0, hn => accStep V c ⟨0, hn⟩ accM.view.junk
  | n + 1, hn => accStep V c ⟨n + 1, hn⟩ (accAt c n (Nat.lt_of_succ_lt hn))

abbrev accBefore (c : Dev nD) (t : Fin (cfgF V).N) : AccBuf (F := F) c :=
  accAt V c (t.val - 1) (Nat.lt_of_le_of_lt (Nat.sub_le _ _) t.isLt)

theorem accAt_first (c : Dev nD) (t : Fin (cfgF V).N) (h0 : t.val % 318 = 0) :
    accAt V c t.val t.isLt =
      (fusedRunFirst c (grid1.coords t) (srcSt V t) (srcSt_whole V t) (dstSt V t) (dstSt_whole V t) (featSt V t) (featSt_whole V t)
        (outSt V t) (outSt_whole V t) ((isFirst_iff V t).mpr h0) (fun h => by have := (isLast_iff V t).mp h; omega)
        (inBlock V c 0 t) (inBlock V c 1 t) (inBlock V c 2 t) (tblAt V c)).1 := by
  obtain ⟨_ | _, _⟩ := t <;> rw [accAt, accStep, dif_pos h0]

/-- Past position 0 the accumulator is the step from what the position before left. -/
theorem accAt_pos (c : Dev nD) : ∀ t : Fin (cfgF V).N, ¬ t.val % 318 = 0 → accAt V c t.val t.isLt = accStep V c t (accBefore V c t)
  | ⟨0, _⟩, h => absurd (Nat.zero_mod _) h
  | ⟨_ + 1, _⟩, _ => rfl

theorem accAt_mid (c : Dev nD) (t : Fin (cfgF V).N) (h0 : ¬ t.val % 318 = 0) (h1 : ¬ t.val % 318 = 317) :
    accAt V c t.val t.isLt =
      (fusedRunMid c (grid1.coords t) (srcSt V t) (srcSt_whole V t) (dstSt V t) (dstSt_whole V t) (featSt V t) (featSt_whole V t)
        (outSt V t) (outSt_whole V t) (fun h => h0 ((isFirst_iff V t).mp h)) (fun h => h1 ((isLast_iff V t).mp h))
        (inBlock V c 0 t) (inBlock V c 1 t) (inBlock V c 2 t) (accM.view.read (Elt F) (accBefore V c t)) (tblAt V c)).1 :=
  (accAt_pos V c t h0).trans ((dif_neg h0).trans (dif_neg h1))

theorem accAt_last (c : Dev nD) (t : Fin (cfgF V).N) (h0 : ¬ t.val % 318 = 0) (h1 : t.val % 318 = 317) :
    accAt V c t.val t.isLt =
      (fusedRunLast c (grid1.coords t) (srcSt V t) (srcSt_whole V t) (dstSt V t) (dstSt_whole V t) (featSt V t) (featSt_whole V t)
        (outSt V t) (outSt_whole V t) (fun h => h0 ((isFirst_iff V t).mp h)) ((isLast_iff V t).mpr h1)
        (inBlock V c 0 t) (inBlock V c 1 t) (inBlock V c 2 t) (accM.view.read (Elt F) (accBefore V c t)) (tblAt V c)).2.1 :=
  (accAt_pos V c t h0).trans ((dif_neg h0).trans (dif_pos h1))

abbrev outView : View sig .tc .vmem S1x10240x128 .f32 := (Memref.whole cc1_stg3_0 : Memref sig .tc .vmem S1x10240x128 .f32).view

def outAt (c : Dev nD) (n : ℕ) (hn : n < (cfgF V).N) : Vec F S1x10240x128 .f32 :=
  if h1 : n % 318 = 317 then
    outView.read (Elt F) (outView.writes (Elt F) outView.junk
      (runL V c ⟨n, hn⟩ (by show ¬ n % 318 = 0; omega) h1 (accBefore V c ⟨n, hn⟩)).1)
  else outView.read (Elt F) outView.junk

/-- What is held beside the accumulator, unopened. -/
def otherScoped (c : Dev nD) : sProp 𝕄 :=
  Pipeline.scopedRestBut spec1 c [cc1_scratch0]

theorem scopedRest_split (c : Dev nD) :
    (Pipeline.scopedRest spec1 c : sProp 𝕄)
      = iprop((∃ d, owns (c : Thread nD τ) accM fullShare d) ∗ otherScoped (F := F) c) := by
  rw [Pipeline.scopedRest_split_of_list spec1 c [cc1_scratch0] (by decide) (by decide)]
  simp only [accM, owns_whole]; rfl

def carried (c : Dev nD) : sProp 𝕄 :=
  iprop(otherScoped (F := F) c ∗ (∃ r, prngReg c r)
    ∗ Pipeline.prefHeld (Ix := Unit) (Name := ℕ) (U := UR sig nD τ) (Lvl := ℕ) pre1 c (fun _ => fullShare.left) (maskTbl V)
    ∗ maskPt c (tblAt V c))

/-- The table held whole is its left half held beside the right half the body reads through. -/
theorem tbl_halves (c : Dev nD) :
    (Pipeline.prefHeld pre1 c (fun _ => fullShare) (maskTbl V) : sProp 𝕄)
      = iprop(Pipeline.prefHeld pre1 c (fun _ => fullShare.left) (maskTbl V)
          ∗ maskPt c (tblAt V c)) := by
  have h := Pipeline.prefHeld_share (τ := τ) (Ix := Unit) (Name := ℕ) (U := UR sig nD τ) (Lvl := ℕ) (Val := Elt F) pre1 c
    (PosShare.mem_left_op_right fullShare) (maskTbl V)
  rw [equiv_iff.mp ⟨h.1, h.2⟩]
  congr 1
  unfold Pipeline.prefHeld
  rw [show (Finset.univ : Finset (Fin 1)) = {(0 : Fin 1)} from by decide, bigSep_singleton]
  rfl

def PhiF (c : Dev nD) : (n : ℕ) → n ≤ (cfgF V).N → sProp 𝕄
  | 0, _ => iprop((∃ d, owns (c : Thread nD τ) accM fullShare d) ∗ carried V c)
  | n + 1, hn => iprop(accPt c (accAt V c n hn) ∗ carried V c)

theorem accPt_owns (c : Dev nD) (f : AccBuf (F := F) c) :
    accPt c f ⊢ (owns (c : Thread nD τ) accM fullShare (accM.view.read (Elt F) f) : sProp 𝕄) := by
  unfold owns
  iintro H; iexists f; isplitr; · ipureintro; rfl
  iexact H

def fusedDat (c : Dev nD) : Dat τ (Elt F) Unit ℕ (UR sig nD τ) ℕ (cfgF V) c where
  A w := V c (Pipeline.arrRef spec1 w)
  after w t := match w with
    | ⟨0, _⟩ => inBlock V c 0 t
    | ⟨1, _⟩ => inBlock V c 1 t
    | ⟨2, _⟩ => inBlock V c 2 t
    | ⟨3, _⟩ => outAt V c t.val t.isLt
  Φ t := PhiF V c t.val (Nat.le_of_lt_succ t.isLt)
  q _ := fullShare
  owed _ := 0

theorem fusedDat_A (c : Dev nD) (w : Fin (cfgF V).W) : (fusedDat V c).A w = V c (Pipeline.arrRef spec1 w) := by
  dsimp only [fusedDat]

/-- The invariant always yields the accumulator at some contents, -/
theorem Phi_any (c : Dev nD) : ∀ t, (fusedDat V c).Φ t ⊢ iprop((∃ d, owns (c : Thread nD τ) accM fullShare d) ∗ carried V c)
  | ⟨0, _⟩ => .rfl
  | ⟨_ + 1, _⟩ => sep_mono_left ((accPt_owns c _).trans (exists_intro _))

/-- and past position 0 at what the step before left. -/
theorem Phi_pos (c : Dev nD) : ∀ t : Fin (cfgF V).N, ¬ t.val % 318 = 0 → (fusedDat V c).Φ t.castSucc
    ⊢ iprop(owns (c : Thread nD τ) accM fullShare (accM.view.read (Elt F) (accBefore V c t)) ∗ carried V c)
  | ⟨0, _⟩, h => absurd (Nat.zero_mod _) h
  | ⟨_ + 1, _⟩, _ => sep_mono_left (accPt_owns c _)

theorem before_in (c : Dev nD) (t : Fin (cfgF V).N) :
    (∀ d, (fusedDat V c).before 0 t d = inBlock V c 0 t) ∧ (∀ d, (fusedDat V c).before 1 t d = inBlock V c 1 t)
      ∧ ∀ d, (fusedDat V c).before 2 t d = inBlock V c 2 t := by
  refine ⟨?_, ?_, ?_⟩ <;>
    exact fun d => ((fusedDat V c).before_in_eq_fetched _ rfl (fun _ => rfl) (fun _ _ _ => rfl) (fun _ => rfl) t d).trans rfl

theorem after_out_last (c : Dev nD) (t : Fin (cfgF V).N) (h0 : ¬ t.val % 318 = 0) (h1 : t.val % 318 = 317) :
    (fusedDat V c).after 3 t = outView.read (Elt F) (outView.writes (Elt F) outView.junk
      (fusedRunLast c (grid1.coords t) (srcSt V t) (srcSt_whole V t) (dstSt V t) (dstSt_whole V t) (featSt V t) (featSt_whole V t)
        (outSt V t) (outSt_whole V t) (fun h => h0 ((isFirst_iff V t).mp h)) ((isLast_iff V t).mpr h1)
        (inBlock V c 0 t) (inBlock V c 1 t) (inBlock V c 2 t) (accM.view.read (Elt F) (accBefore V c t)) (tblAt V c)).1) := by
  dsimp only [fusedDat]; exact dif_pos h1

/-- Except at positions 317 modulo 318 the output block is left as found. -/
theorem out_leaves (c : Dev nD) (t : Fin (cfgF V).N) (h : ¬ t.val % 318 = 317) :
    (fusedDat V c).leavesExact 3 t = iprop(∃ d, owns (c : Thread nD τ) (outSt V t) fullShare ((fusedDat V c).before 3 t d)) :=
  Dat.leavesExact_idle _ 3 t ((out_idle V t).trans (decide_eq_true h)) (out_noFlush V t h)

/-- A step's triple framed into the invariant: what the step leaves alone passes around it, and its ends are weakened. -/
theorem step_frame {c : Dev nD} {e : Prog (TpuEff nD τ sig (Elt F) Λ₀ .tc) PUnit} {α β₀ β₁ β₂ : Type}
    {Φ₀ O A₀ A₁ A₂ S S' R₁ R₂ R₃ T L : sProp 𝕄} {P P' Q : α → sProp 𝕄}
    (run : ∀ x K, iprop(A₀ ∗ A₁ ∗ A₂ ∗ P' x ∗ S ∗ T ∗ (iprop(A₀ ∗ A₁ ∗ A₂ ∗ Q x ∗ S' ∗ T) -∗ K ⟨⟩))
      ⊢ wp frame (wpE (defs₀ (F := F)) Variants.none c none) Set.univ e K)
    (hΦ : Φ₀ ⊢ iprop(S ∗ R₁ ∗ R₂ ∗ R₃ ∗ T)) (hP : ∀ x, P x ⊢ P' x) (hL : ∀ x, Q x ⊢ L) :
    iprop(Φ₀ ∗ O ∗ (∃ _ : β₀, A₀) ∗ (∃ _ : β₁, A₁) ∗ (∃ _ : β₂, A₂) ∗ ∃ x, P x)
      ⊢ wp frame (wpE (defs₀ (F := F)) Variants.none c none) Set.univ e
          fun _ => iprop((S' ∗ R₁ ∗ R₂ ∗ R₃ ∗ T) ∗ O ∗ A₀ ∗ A₁ ∗ A₂ ∗ L) := by
  iintro ⟨HΦ, HO, ⟨%_, H0⟩, ⟨%_, H1⟩, ⟨%_, H2⟩, ⟨%x, H3⟩⟩
  icases hΦ $$ HΦ with ⟨HS, HR1, HR2, HR3, HT⟩
  iapply run x
  iframe H0 H1 H2 HS HT
  isplitl [H3]; · iapply hP; iexact H3
  iintro ⟨H0, H1, H2, H3, HS, HT⟩
  iframe
  iapply hL; iexact H3

set_option maxHeartbeats 4000000 in
/-- The body at any point: its position modulo 318 says which of the three runs applies. -/
theorem fused_sound (c : Dev nD) (t : Fin (cfgF V).N) :
    iprop((fusedDat V c).Φ t.castSucc ∗ (fusedDat V c).owesAt () t.castSucc
      ∗ (∃ d, owns (c : Thread nD τ) (srcSt V t) fullShare ((fusedDat V c).before 0 t d))
      ∗ (∃ d, owns (c : Thread nD τ) (dstSt V t) fullShare ((fusedDat V c).before 1 t d))
      ∗ (∃ d, owns (c : Thread nD τ) (featSt V t) fullShare ((fusedDat V c).before 2 t d))
      ∗ (∃ d, owns (c : Thread nD τ) (outSt V t) fullShare ((fusedDat V c).before 3 t d)))
    ⊢ wp frame (wpE (defs₀ (F := F)) Variants.none c none) Set.univ (fusedAt V t) fun _ =>
      iprop((accPt c (accAt V c t.val t.isLt) ∗ carried V c) ∗ (fusedDat V c).owesAt () t.castSucc
        ∗ owns (c : Thread nD τ) (srcSt V t) fullShare (inBlock V c 0 t)
        ∗ owns (c : Thread nD τ) (dstSt V t) fullShare (inBlock V c 1 t)
        ∗ owns (c : Thread nD τ) (featSt V t) fullShare (inBlock V c 2 t)
        ∗ (fusedDat V c).leavesExact 3 t) := by
  simp only [before_in]
  by_cases h0 : t.val % 318 = 0
  · rw [out_leaves V c t (by omega), accAt_first V c t h0]
    exact step_frame (fun _ K => (runF V c t h0).2 _ _ K) (Phi_any V c _) (fun _ => .rfl) fun _ => by iintro H; iexists _; iexact H
  by_cases h1 : t.val % 318 = 317
  · rw [show (fusedDat V c).leavesExact 3 t = owns (c : Thread nD τ) (outSt V t) fullShare ((fusedDat V c).after 3 t) from by
      unfold Dat.leavesExact; rw [out_idle V t, decide_eq_false (not_not.2 h1)]; rfl, after_out_last V c t h0 h1, accAt_last V c t h0 h1]
    refine step_frame (fun _ K => (runL V c t h0 h1 _).2.2 _ K) (Phi_pos V c t h0) (fun x => exists_intro _) fun _ => ?_
    unfold owns
    iintro ⟨%f, H⟩; iexists _; iframe H
    ipureintro; exact View.read_writes_of_cover _ _ _ _ _ (View.cover_of_tiledL _ S1x10240x128.size (by sl_kernel_rfl))
  · rw [out_leaves V c t h1, accAt_mid V c t h0 h1]
    exact step_frame (fun _ K => (runM V c t h0 h1 _).2 _ _ K) (Phi_pos V c t h0) (fun _ => .rfl) fun _ => by iintro H; iexists _; iexact H

theorem fused_obligation (c : Dev nD) : BodyObligation (fusedDat (F := F) V c) (defs₀ (F := F)) Variants.none () Set.univ := fun t => by
  rw [bigSep_W1, bigSep_W1]
  exact fused_sound V c t

theorem fused_hin (c : Dev nD) :
    iprop((∃ r, prngReg c r) ∗ Pipeline.prefHeld pre1 c (fun _ => fullShare) (maskTbl V) ∗ Pipeline.scopedRest spec1 c)
      ⊢ ((fusedDat V c).Φ 0 : sProp 𝕄) := by
  rw [tbl_halves, scopedRest_split]
  exact sep_assoc.2.trans (sep_comm.1.trans sep_assoc.1)

theorem fused_hout (c : Dev nD) :
    (fusedDat V c).Φ (Fin.last (cfgF V).N)
      ⊢ (iprop(((∃ r, prngReg c r) ∗ Pipeline.prefHeld pre1 c (fun _ => fullShare) (maskTbl V)) ∗ Pipeline.scopedRest spec1 c) : sProp 𝕄) := by
  rw [tbl_halves, scopedRest_split]
  exact (Phi_any V c _).trans (sep_assoc.2.trans sep_comm.1)

end Cert.Kernel.Hand

end
-- ==== Proof.KernelRunW.lean ====
import proofs.«419665_j81406810129006_3_alg».proof.Proof.Gen.Kernel.Launch
import proofs.«419665_j81406810129006_3_alg».proof.Proof.Gen.Kernel.Skeleton
import proofs.«419665_j81406810129006_3_alg».proof.Proof.Gen.Kernel.Points
import proofs.«419665_j81406810129006_3_alg».proof.Proof.Gen.Kernel.Regions
import proofs.«419665_j81406810129006_3_alg».proof.Proof.DenseRegionW
import proofs.«419665_j81406810129006_3_alg».proof.Proof.MainRunW
import proofs.«419665_j81406810129006_3_alg».proof.Proof.FusedDatW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev denseIn (c : Dev nD) (b : Ref sig .tc) : Buf (Elt F) ((c : Thread nD τ).loc b) := V9 m c b

def hsOut (c : Dev nD) : Buf (Elt F) ((c : Thread nD τ).loc main_v39) := (denseDat (denseIn m) c).arrAt 3 cfg0.N

abbrev denseLeaves (c : Dev nD) : Valuation τ sig (Elt F) := Function.update (V9 m c) main_v39 (hsOut m c)

abbrev fusedIn (c : Dev nD) (b : Ref sig .tc) : Buf (Elt F) ((c : Thread nD τ).loc b) := StableHlo.after hostOps1 (denseLeaves m c) b

def fusedOut (c : Dev nD) : Buf (Elt F) ((c : Thread nD τ).loc main_v62) := (fusedDat (fusedIn m) c).arrAt 3 (cfgF (fusedIn m)).N

def kOuts : Outs (F := F) := fun _ r c =>
  Function.update (Function.update (V0 m c) main_v39 (hsOut m c)) main_v62 (fusedOut m c) r

theorem kOuts_39 (c : Dev nD) : kOuts m 10 main_v39 c = hsOut m c := by
  unfold kOuts
  rw [Function.update_of_ne (by decide : (Proc.devRef .tc main_v39 : DevRef τ sig) ≠ Proc.devRef .tc main_v62), Function.update_self]

theorem kOuts_62 (c : Dev nD) : kOuts m 12 main_v62 c = fusedOut m c := by
  unfold kOuts
  rw [Function.update_self]

theorem V10_kOuts (c : Dev nD) : V10 m (kOuts m) c = denseLeaves m c :=
  congrArg (Function.update (V9 m c) main_v39) (kOuts_39 m c)
theorem V11_kOuts (c : Dev nD) : V11 m (kOuts m) c = StableHlo.after hostOps1 (denseLeaves m c) :=
  congrArg (StableHlo.after hostOps1) (V10_kOuts m c)
theorem V11_kOuts_apply (c : Dev nD) (b : Ref sig .tc) : V11 m (kOuts m) c b = fusedIn m c b :=
  congrFun (V11_kOuts m c) b

def kAdm : (p : Fin 2) → (pcfgs (F := F) p).Adm
  | ⟨0, _⟩ => cfg0.toPCfg_adm
  | ⟨1, _⟩ => fusedAdm (fusedIn m)

def kDats : (p : Fin 2) → (c : Dev nD) → Dat τ (Elt F) Unit ℕ (UR sig nD τ) ℕ (Pipeline.pin (pcfgs (F := F)) (kAdm m) p) c
  | ⟨0, _⟩ => fun c => denseDat (denseIn m) c
  | ⟨1, _⟩ => fun c => fusedDat (fusedIn m) c

theorem owes_within (c : Dev nD) {B : Set (SemLoc sig × Unit)} (hB : ∀ x, x ∈ B) :
    iprop(∃ W, owes (c : Thread nD τ) (0 : CellTallies nD τ sig Unit) W) ⊢ (Pipeline.owesWithin c 0 B : sProp 𝕄) := by
  iintro ⟨%W, H⟩; iexists W; isplitr; · ipureintro; exact fun x _ => hB x
  iexact H

theorem owes_of_within (c : Dev nD) (B : Set (SemLoc sig × Unit)) :
    (Pipeline.owesWithin c 0 B : sProp 𝕄) ⊢ iprop(∃ W, owes (c : Thread nD τ) (0 : CellTallies nD τ sig Unit) W) := by
  iintro ⟨%W, -, H⟩; iexists W; iexact H

theorem dense_arr_final (c : Dev nD) (w : Fin cfg0.W) :
    (denseDat (denseIn m) c).arrAt w cfg0.N = V10 m (kOuts m) c (Pipeline.arrRef spec0 w) :=
  match w with
  | ⟨3, _⟩ => by
      show hsOut m c = Function.update (V9 m c) main_v39 (kOuts m 10 main_v39 c) main_v39
      rw [Function.update_self, kOuts_39]
  | ⟨0, h⟩ | ⟨1, h⟩ | ⟨2, h⟩ => ((denseDat (denseIn m) c).arrAt_in ⟨_, h⟩ rfl cfg0.N).trans
      (V10_of m (kOuts m) c (Pipeline.arrRef spec0 ⟨_, h⟩) (by decide +revert)).symm

theorem dense_rest_final (c : Dev nD) (b : Ref sig .tc) (hb : b ∉ Finset.univ.image (Pipeline.arrRef spec0)) :
    V10 m (kOuts m) c b = V9 m c b :=
  V10_of m (kOuts m) c b fun h => hb (Finset.mem_image.mpr ⟨3, Finset.mem_univ _, (List.mem_singleton.mp h).symm⟩)

set_option backward.isDefEq.respectTransparency.types false in
def denseSeg : Pipeline.RegionSeg (pcfgs (F := F)) (kAdm m) (kDats m) () defs₀ Variants.none L₀ lv₀ 0 where
  win := (launch0 (F := F)).win.to₀
  block_pos := (launch0 (F := F)).block_pos
  stage_whole := (launch0 (F := F)).stage_whole
  K := PEmpty
  osem k := k.elim
  ho := Pipeline.OwnSemFacts.none _
  hbody c := (dense_obligation (denseIn m) c).loose
  hwaits := Pipeline.hwaits_of_owed_zero _ _ _ _ L₀ lv₀ 0 fun _ _ => rfl
  pre := heldR (V9 m)
  post := heldR (V10 m (kOuts m))
  X c := iprop(∃ r, prngReg c r)
  Y c := iprop(∃ r, prngReg c r)
  Z c := Pipeline.unscopedRest spec0 c (denseIn m c)
  hentry c := by
    rw [Pipeline.ownSems0_none]
    have harrs := Pipeline.arrays_of_unscopedBufs (p := 0) (pcfgs (F := F)) (kAdm m) (kDats m) (launch0 (F := F)).win (launch0 (F := F)).arr_whole c
      ((kDats m 0 c).share_full fun _ => rfl) (denseIn m c) fun _ => rfl
    rw [Pipeline.unscopedBufs_held] at harrs
    iintro ⟨⟨Hbufs, Hreg, Hdebt⟩, -, -⟩
    ihave H := harrs $$ Hbufs
    icases H with ⟨Harr, Hrest⟩
    imodintro
    iframe Harr Hreg Hrest
    isplitr; · unfold Pipeline.prefHeld; rw [show (Finset.univ : Finset (Fin 0)) = ∅ from rfl, BI.bigSep_empty]; iempintro
    iapply (owes_within c fun _ => Or.inl trivial); iexact Hdebt
  hin c := by
    rw [show (kDats m 0 c).Φ 0 = Pipeline.ΦA spec0 c from rfl]; unfold Pipeline.ΦA
    iintro ⟨Hreg, -, Hscoped⟩
    iframe
  hout c := by
    rw [Pipeline.ownSems0_none, show (kDats m 0 c).Φ (Fin.last _) = Pipeline.ΦA spec0 c from rfl]; unfold Pipeline.ΦA
    iintro ⟨Hscoped, Hreg⟩
    iframe; iempintro
  hexit c := by
    have hjoin := Pipeline.unscopedBufs_of_arrays (p := 0) (pcfgs (F := F)) (kAdm m) (launch0 (F := F)).win (launch0 (F := F)).arr_whole c (kDats m) ((kDats m 0 c).share_full fun _ => rfl)
      (denseIn m c) (fun b => V10 m (kOuts m) c b) ((kDats m 0 c).arrAt · cfg0.N) (dense_arr_final m c) (dense_rest_final m c)
    rw [Pipeline.unscopedBufs_held] at hjoin
    iintro ⟨Harr, Hdebt, Hreg, Hrest⟩
    imodintro
    isplitl [Harr Hrest]
    · iapply hjoin; iframe
    isplitl [Hreg]; · iexact Hreg
    iapply owes_of_within; iexact Hdebt

theorem fused_arr_final (c : Dev nD) (w : Fin (cfgF (fusedIn m)).W) :
    (fusedDat (fusedIn m) c).arrAt w (cfgF (fusedIn m)).N = V12 m (kOuts m) c (Pipeline.arrRef spec1 w) :=
  match w with
  | ⟨0, _⟩ => ((fusedDat (fusedIn m) c).arrAt_in 0 rfl _).trans
      ((fusedDat_A (fusedIn m) c 0).trans ((V12_of m (kOuts m) c main_v28 (by decide)).trans (V11_kOuts_apply m c main_v28)).symm)
  | ⟨1, _⟩ => ((fusedDat (fusedIn m) c).arrAt_in 1 rfl _).trans
      ((fusedDat_A (fusedIn m) c 1).trans ((V12_of m (kOuts m) c main_v35 (by decide)).trans (V11_kOuts_apply m c main_v35)).symm)
  | ⟨2, _⟩ => ((fusedDat (fusedIn m) c).arrAt_in 2 rfl _).trans
      ((fusedDat_A (fusedIn m) c 2).trans ((V12_of m (kOuts m) c main_v39 (by decide)).trans (V11_kOuts_apply m c main_v39)).symm)
  | ⟨3, _⟩ => by
      show fusedOut m c = Function.update (V11 m (kOuts m) c) main_v62 (kOuts m 12 main_v62 c) main_v62
      rw [Function.update_self, kOuts_62]

theorem fused_rest_final (c : Dev nD) (b : Ref sig .tc) (hb : b ∉ Finset.univ.image (Pipeline.arrRef spec1)) :
    V12 m (kOuts m) c b = fusedIn m c b :=
  (V12_of m (kOuts m) c b fun h => hb (Finset.mem_image.mpr ⟨3, Finset.mem_univ _, (List.mem_singleton.mp h).symm⟩)).trans
    (V11_kOuts_apply m c b)

theorem maskTbl_here (c : Dev nD) : (fun k => fusedIn m c ((pcfgs (F := F) 1).pre.ref k)) = maskTbl (fusedIn m) := by
  have hc : c = 0 := Subsingleton.elim _ _
  subst hc; unfold maskTbl; rfl

set_option backward.isDefEq.respectTransparency.types false in
def fusedSeg : Pipeline.RegionSeg (pcfgs (F := F)) (kAdm m) (kDats m) () defs₀ Variants.none L₀ lv₀ 1 where
  win := (launch1 (F := F)).win.to₀
  block_pos := (launch1 (F := F)).block_pos
  stage_whole := (launch1 (F := F)).stage_whole
  K := PEmpty
  osem k := k.elim
  ho := Pipeline.OwnSemFacts.none _
  hbody c := (fused_obligation (fusedIn m) c).loose
  hwaits := Pipeline.hwaits_of_owed_zero _ _ _ _ L₀ lv₀ 1 fun _ _ => rfl
  pre := heldR (V11 m (kOuts m))
  post := heldR (V12 m (kOuts m))
  X c := iprop(∃ r, prngReg c r)
  Y c := iprop((∃ r, prngReg c r) ∗ Pipeline.prefHeld pre1 c (fun _ => fullShare) (maskTbl (fusedIn m)))
  Z c := Pipeline.unscopedRestP pre1 spec1 c (fusedIn m c)
  hentry c := by
    unfold heldR; rw [Pipeline.ownSems0_none, V11_kOuts]
    have harrs := Pipeline.arrays_of_unscopedBufs (p := 1) (pcfgs (F := F)) (kAdm m) (kDats m) (launch1 (F := F)).win (launch1 (F := F)).arr_whole c
      ((kDats m 1 c).share_full fun _ => rfl) (fusedIn m c) fun w => fusedDat_A (fusedIn m) c w
    rw [Pipeline.unscopedBufs_held, Pipeline.unscopedRest_split (launch1 (F := F)).pre c (fusedIn m c), maskTbl_here m c] at harrs
    iintro ⟨⟨Hbufs, Hreg, Hdebt⟩, -, -⟩
    ihave H := harrs $$ Hbufs
    icases H with ⟨Harr, Htbl, Hrest⟩
    imodintro
    iframe Harr Hreg Hrest
    isplitl [Htbl]; · iexact Htbl
    iapply (owes_within c fun _ => Or.inl trivial); iexact Hdebt
  hin c := fused_hin (fusedIn m) c
  hout c := by
    rw [Pipeline.ownSems0_none]
    refine (fused_hout (fusedIn m) c).trans ?_
    iintro ⟨HY, Hscoped⟩
    iframe; iempintro
  hexit c := by
    have hjoin := Pipeline.unscopedBufs_of_arrays (p := 1) (pcfgs (F := F)) (kAdm m) (launch1 (F := F)).win (launch1 (F := F)).arr_whole c (kDats m) ((kDats m 1 c).share_full fun _ => rfl)
      (fusedIn m c) (fun b => V12 m (kOuts m) c b) ((kDats m 1 c).arrAt · (cfgF (fusedIn m)).N) (fused_arr_final m c) (fused_rest_final m c)
    rw [Pipeline.unscopedBufs_held, Pipeline.unscopedRest_split (launch1 (F := F)).pre c (fusedIn m c), maskTbl_here m c] at hjoin
    iintro ⟨Harr, Hdebt, ⟨Hreg, Htbl⟩, Hrest⟩
    imodintro
    isplitl [Harr Htbl Hrest]
    · iapply hjoin; iframe
    isplitl [Hreg]; · iexact Hreg
    iapply owes_of_within; iexact Hdebt

set_option backward.isDefEq.respectTransparency.types false in
theorem kernel_run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V16 m (kOuts m) c b) := by
  refine Pipeline.θ_run_regions_kit_dev (pcfgs (F := F)) (kAdm m) (kDats m) () (cellOf_inj _) emb₁ defs₀ Variants.none L₀ lv₀ m ρ main
    (segs m (kOuts m) Variants.none L₀ lv₀ (fun _ => Rr) () (kAdm m) (kDats m) (denseSeg m) (fusedSeg m))
    (fun c Q => by rewrite [main_chain c, Pipeline.Seg.run_eq_chain]; exact .rfl)
    (fun c => by simp only [segs, Pipeline.Seg.pipes_host, Pipeline.Seg.pipes_region, Pipeline.Seg.pipes_nil]; decide)
    0 (fun _ _ => rfl) (fun _ => BI.emp) ?u ?hu (T₀ := heldR (V0 m))
    (Tₙ := fun c => StableHlo.held (c : Thread nD τ) (Pipeline.ucRefs τ sig) (V16 m (kOuts m) c))
    (hch := fun c => ⟨.rfl, .rfl, .rfl, .rfl, .rfl, .rfl, .rfl, .rfl, .rfl, .rfl, .rfl, .rfl, .rfl, .rfl, .rfl, .rfl, sep_mono .rfl sep_elim_right⟩)
    (hinit := Pipeline.initEach L₀ lv₀ fun c => ?_)
    (QY := fun c s => ∀ b ∈ Pipeline.ucRefs τ sig, s.mem (((c : Thread nD τ)).1, b) = V16 m (kOuts m) c b)
    (hfin := fun c s' => ?_) (hQ := fun _ h => h)
  case hu =>
    rw [BI.bigSep_emp_const]; unfold ownU emb₁
    iintro Hu; imodintro
    isplitl [Hu]; · iexact Hu
    iempintro
  · unfold heldR
    rw [← Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro H; imodintro
    iapply (pointsTo_read_all (Pipeline.ucRefs τ sig) (fun b => (((c : Thread nD τ)).1, b)) (V16 m (kOuts m) c) s')
    iexact H

end Cert.Kernel.Hand

end
-- ==== Proof.Frames.lean ====
import proofs.«419665_j81406810129006_3_alg».proof.Defs
import proofs.«419665_j81406810129006_3_alg».proof.Proof.KernelRun
import proofs.«419665_j81406810129006_3_alg».proof.Proof.KernelRunW
import proofs.«419665_j81406810129006_3_alg».proof.Proof.Gen.Kernel
import proofs.«419665_j81406810129006_3_alg».proof.Proof.Gen.KernelIdeal
import proofs.«419665_j81406810129006_3_alg».proof.Proof.Gen.Pre_finite_inputs

noncomputable section

namespace Cert.Proof.Frames

open Idealize.ShloMosaic Idealize.SL.Sem

open Cert.KernelIdeal Cert.KernelIdeal.Gen Cert.KernelIdeal.Hand in
/-- No host stretch and neither region writes an argument array, so the run's last boundary still has the launch contents. -/
theorem frame_pi : Cert.frame_KernelIdeal := fun m ρ _ =>
  (θ_run (defs (F := Ideal)) _ _).mono
    (fun r h c =>
      ⟨(h c _ (mem_uc main_arg0 (by decide))).trans (V16_main_arg0 m _ c),
       (h c _ (mem_uc main_arg1 (by decide))).trans (V16_main_arg1 m _ c),
       (h c _ (mem_uc main_arg2 (by decide))).trans (V16_main_arg2 m _ c),
       (h c _ (mem_uc main_arg3 (by decide))).trans (V16_main_arg3 m _ c),
       (h c _ (mem_uc main_arg4 (by decide))).trans (V16_main_arg4 m _ c),
       (h c _ (mem_uc main_arg5 (by decide))).trans (V16_main_arg5 m _ c),
       (h c _ (mem_uc main_arg6 (by decide))).trans (V16_main_arg6 m _ c)⟩)
    (kernel_run m ρ)

open Cert.Kernel Cert.Kernel.Gen Cert.Kernel.Hand in
theorem frame_p : Cert.frame_Kernel := fun m ρ _ =>
  (θ_run (defs (F := Bits)) _ _).mono
    (fun r h c =>
      ⟨(h c _ (mem_uc main_arg0 (by decide))).trans (V16_main_arg0 m _ c),
       (h c _ (mem_uc main_arg1 (by decide))).trans (V16_main_arg1 m _ c),
       (h c _ (mem_uc main_arg2 (by decide))).trans (V16_main_arg2 m _ c),
       (h c _ (mem_uc main_arg3 (by decide))).trans (V16_main_arg3 m _ c),
       (h c _ (mem_uc main_arg4 (by decide))).trans (V16_main_arg4 m _ c),
       (h c _ (mem_uc main_arg5 (by decide))).trans (V16_main_arg5 m _ c),
       (h c _ (mem_uc main_arg6 (by decide))).trans (V16_main_arg6 m _ c)⟩)
    (kernel_run m ρ)

end Cert.Proof.Frames

end
-- ==== Proof.RefRun.lean ====
import proofs.«419665_j81406810129006_3_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ binary main_arg0 main_arg3 main_v0 ((fun l r => Host.dotGeneral dot_S10000x128_S128x128_S10000x128_1_0_0_1_n_n none l r)),
    nullary main_v1 (iotaInDim S10000 32 0),
    unary main_arg1 main_v2 (extractStridedSlice S1x640000 ![0, 0] · slices_S2x640000_S1x640000_0_0),
    reshape main_v2 main_v3 rfl shapeCasts_S1x640000_S640000,
    binary main_v3 main_v1 main_v4 (fun a b => concatenate S650000 0 [⟨S640000, a⟩, ⟨S10000, b⟩] concatenates_S640000_S10000_S650000_d0),
    unary main_arg1 main_v5 (extractStridedSlice S1x640000 ![1, 0] · slices_S2x640000_S1x640000_1_0),
    reshape main_v5 main_v6 rfl shapeCasts_S1x640000_S640000,
    binary main_v6 main_v1 main_v7 (fun a b => concatenate S650000 0 [⟨S640000, a⟩, ⟨S10000, b⟩] concatenates_S640000_S10000_S650000_d0),
    nullary main_cst (constant S_ .f32 0x3F800000#32),
    unary main_cst main_v8 (broadcastInDim S650000 ![] bcast_S_S650000),
    nullary main_cst_0 (constant S_ .f32 0x00000000#32),
    unary main_cst_0 main_v9 (broadcastInDim S10000 ![] bcast_S_S10000),
    unary main_v7 main_v10 (broadcastInDim S650000x1 ![0] bcast_S650000_S650000x1_0),
    ternary main_v9 main_v10 main_v8 main_v11 (fun x i u => Host.scatterAdd scatter_S10000_S650000x1_S650000_n_0_0_1 x i u),
    nullary main_cst_1 (constant S_ .f32 0x00000000#32),
    unary main_cst_1 main_v12 (broadcastInDim S10000 ![] bcast_S_S10000),
    binary main_v11 main_v12 main_v13 (cmpf (F := F) .ogt),
    nullary main_cst_2 (constant S_ .f32 0x3F800000#32),
    unary main_cst_2 main_v14 (broadcastInDim S10000 ![] bcast_S_S10000),
    binary main_v11 main_v14 main_v15 (maximumf),
    unary main_v15 main_v16 (Host.rsqrt),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v16) (TRef.of (T := ⟨S10000, .f32⟩) main_call0_v1) (TRef.of (T := ⟨S10000, .f32⟩) main_v17) select,
    nullary main_c (constantI S_ 32 0#32),
    unary main_c main_v18 (broadcastInDim S650000 ![] bcast_S_S650000),
    binary main_v4 main_v18 main_v19 (cmpi .slt),
    nullary main_c_4 (constantI S_ 32 10000#32),
    unary main_c_4 main_v20 (broadcastInDim S650000 ![] bcast_S_S650000),
    binary main_v4 main_v20 main_v21 (addi),
    ternary main_v19 main_v21 main_v4 main_v22 (select),
    unary main_v22 main_v23 (broadcastInDim S650000x1 ![0] bcast_S650000_S650000x1_0),
    binary main_v17 main_v23 main_v24 (fun x i => Host.gather gather_S10000_S650000x1_S650000_n_0_n_n_0_1_1 x i),
    nullary main_c_5 (constantI S_ 32 0#32),
    unary main_c_5 main_v25 (broadcastInDim S650000 ![] bcast_S_S650000),
    binary main_v7 main_v25 main_v26 (cmpi .slt),
    nullary main_c_6 (constantI S_ 32 10000#32),
    unary main_c_6 main_v27 (broadcastInDim S650000 ![] bcast_S_S650000),
    binary main_v7 main_v27 main_v28 (addi),
    ternary main_v26 main_v28 main_v7 main_v29 (select),
    unary main_v29 main_v30 (broadcastInDim S650000x1 ![0] bcast_S650000_S650000x1_0),
    binary main_v17 main_v30 main_v31 (fun x i => Host.gather gather_S10000_S650000x1_S650000_n_0_n_n_0_1_1 x i),
    binary main_v24 main_v31 main_v32 (mulf),
    unary main_v32 main_v33 (broadcastInDim S650000x1 ![0] bcast_S650000_S650000x1_0),
    nullary main_c_7 (constantI S_ 32 0#32),
    unary main_c_7 main_v34 (broadcastInDim S650000 ![] bcast_S_S650000),
    binary main_v4 main_v34 main_v35 (cmpi .slt),
    nullary main_c_8 (constantI S_ 32 10000#32),
    unary main_c_8 main_v36 (broadcastInDim S650000 ![] bcast_S_S650000),
    binary main_v4 main_v36 main_v37 (addi),
    ternary main_v35 main_v37 main_v4 main_v38 (select),
    unary main_v38 main_v39 (broadcastInDim S650000x1 ![0] bcast_S650000_S650000x1_0),
    binary main_v0 main_v39 main_v40 (fun x i => Host.gather gather_S10000x128_S650000x1_S650000x128_1_0_n_n_0_1_1128 x i),
    unary main_v33 main_v41 (broadcastInDim S650000x128 ![0, 1] bcast_S650000x1_S650000x128_0_1),
    binary main_v41 main_v40 main_v42 (mulf),
    nullary main_cst_9 (constant S_ .f32 0x00000000#32),
    unary main_cst_9 main_v43 (broadcastInDim S10000x128 ![] bcast_S_S10000x128),
    unary main_v7 main_v44 (broadcastInDim S650000x1 ![0] bcast_S650000_S650000x1_0),
    ternary main_v43 main_v44 main_v42 main_v45 (fun x i u => Host.scatterAdd scatter_S10000x128_S650000x1_S650000x128_1_0_0_1 x i u),
    unary main_arg4 main_v46 (broadcastInDim S1x128 ![1] bcast_S128_S1x128_1),
    unary main_v46 main_v47 (broadcastInDim S10000x128 ![0, 1] bcast_S1x128_S10000x128_0_1),
    binary main_v45 main_v47 main_v48 (addf),
    TRef.nullary (TRef.of (T := ⟨S_, .f32⟩) main_call1_cst) (constant S_ .f32 0x00000000#32),
    TRef.unary (TRef.of (T := ⟨S_, .f32⟩) main_call1_cst) (TRef.of (T := ⟨S10000x128, .f32⟩) main_call1_v0) (broadcastInDim S10000x128 ![] bcast_S_S10000x128),
    TRef.binary (TRef.of (T := ⟨S10000x128, .f32⟩) main_v48) (TRef.of (T := ⟨S10000x128, .f32⟩) main_call1_v0) (TRef.of (T := ⟨S10000x128, .f32⟩) main_v49) maximumf,
    nullary main_cst_10 (constant S_ .f32 0x00000000#32),
    unary main_cst_10 main_v50 (broadcastInDim S64x128 ![] bcast_S_S64x128),
    unary main_arg2 main_v51 (broadcastInDim S10000x1 ![0] bcast_S10000_S10000x1_0),
    ternary main_v50 main_v51 main_v49 main_v52 (fun x i u => Host.scatterAdd scatter_S64x128_S10000x1_S10000x128_1_0_0_1 x i u),
    nullary main_cst_11 (constant S_ .f32 0x3F800000#32),
    unary main_cst_11 main_v53 (broadcastInDim S10000 ![] bcast_S_S10000),
    nullary main_cst_12 (constant S_ .f32 0x00000000#32),
    unary main_cst_12 main_v54 (broadcastInDim S64 ![] bcast_S_S64),
    unary main_arg2 main_v55 (broadcastInDim S10000x1 ![0] bcast_S10000_S10000x1_0),
    ternary main_v54 main_v55 main_v53 main_v56 (fun x i u => Host.scatterAdd scatter_S64_S10000x1_S10000_n_0_0_1 x i u),
    nullary main_cst_13 (constant S_ .f32 0x3F800000#32),
    unary main_cst_13 main_v57 (broadcastInDim S64 ![] bcast_S_S64),
    binary main_v56 main_v57 main_v58 (maximumf),
    unary main_v58 main_v59 (broadcastInDim S64x1 ![0] bcast_S64_S64x1_0),
    unary main_v59 main_v60 (broadcastInDim S64x128 ![0, 1] bcast_S64x1_S64x128_0_1),
    binary main_v52 main_v60 main_v61 (Host.divf),
    binary main_v61 main_arg5 main_v62 (fun l r => Host.dotGeneral dot_S64x128_S128x2_S64x2_1_0_0_1_n_n none l r),
    unary main_arg6 main_v63 (broadcastInDim S1x2 ![1] bcast_S2_S1x2_1),
    unary main_v63 main_v64 (broadcastInDim S64x2 ![0, 1] bcast_S1x2_S64x2_0_1),
    binary main_v62 main_v64 main_v65 (addf),
    TRef.nullary (TRef.of (T := ⟨S_, .f32⟩) main_call2_cst) (constant S_ .f32 0xFF800000#32),
    TRef.binary (TRef.of (T := ⟨S64x2, .f32⟩) main_v65) (TRef.of (T := ⟨S_, .f32⟩) main_call2_cst) (TRef.of (T := ⟨S64, .f32⟩) main_call2_v0) (fun x v => Host.reduce FloatOps.maximumf x v reducesTo_S64x2_S64_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S64, .f32⟩) main_call2_v1) (broadcastInDim S64 ![] bcast_S_S64),
    TRef.binary (TRef.of (T := ⟨S64, .f32⟩) main_call2_v1) (TRef.of (T := ⟨S64, .f32⟩) main_call2_v0) (TRef.of (T := ⟨S64, .f32⟩) main_call2_v2) maximumf,
    TRef.unary (TRef.of (T := ⟨S64, .f32⟩) main_call2_v2) (TRef.of (T := ⟨S64x1, .f32⟩) main_call2_v3) (broadcastInDim S64x1 ![0] bcast_S64_S64x1_0),
    TRef.unary (TRef.of (T := ⟨S64x1, .f32⟩) main_call2_v3) (TRef.of (T := ⟨S64x2, .f32⟩) main_call2_v4) (broadcastInDim S64x2 ![0, 1] bcast_S64x1_S64x2_0_1),
    TRef.binary (TRef.of (T := ⟨S64x2, .f32⟩) main_v65) (TRef.of (T := ⟨S64x2, .f32⟩) main_call2_v4) (TRef.of (T := ⟨S64x2, .f32⟩) main_call2_v5) subf,
    TRef.unary (TRef.of (T := ⟨S64x2, .f32⟩) main_call2_v5) (TRef.of (T := ⟨S64x2, .f32⟩) main_call2_v6) Host.exp,
    TRef.nullary (TRef.of (T := ⟨S_, .f32⟩) main_call2_cst_1) (constant S_ .f32 0x00000000#32),
    TRef.binary (TRef.of (T := ⟨S64x2, .f32⟩) main_call2_v6) (TRef.of (T := ⟨S_, .f32⟩) main_call2_cst_1) (TRef.of (T := ⟨S64, .f32⟩) main_call2_v7) (fun x v => Host.reduceAdd x v reducesTo_S64x2_S64_d1 h_S_),
    TRef.unary (TRef.of (T := ⟨S64, .f32⟩) main_call2_v7) (TRef.of (T := ⟨S64x1, .f32⟩) main_call2_v8) (broadcastInDim S64x1 ![0] bcast_S64_S64x1_0),
    TRef.unary (TRef.of (T := ⟨S64x1, .f32⟩) main_call2_v8) (TRef.of (T := ⟨S64x1, .f32⟩) main_call2_v9) Host.log,
    TRef.unary (TRef.of (T := ⟨S64x1, .f32⟩) main_call2_v9) (TRef.of (T := ⟨S64x2, .f32⟩) main_call2_v10) (broadcastInDim S64x2 ![0, 1] bcast_S64x1_S64x2_0_1),
    TRef.binary (TRef.of (T := ⟨S64x2, .f32⟩) main_call2_v5) (TRef.of (T := ⟨S64x2, .f32⟩) main_call2_v10) (TRef.of (T := ⟨S64x2, .f32⟩) main_v66) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.ValueP

end
-- ==== Proof.RefRead.lean ====
import proofs.«419665_j81406810129006_3_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S10000x128, .f32⟩ : BufTy).Contents (Elt F)) (x1 : (⟨S2x640000, .i32⟩ : BufTy).Contents (Elt F))
  (x3 : (⟨S128x128, .f32⟩ : BufTy).Contents (Elt F)) (x4 : (⟨S128, .f32⟩ : BufTy).Contents (Elt F))

def val_main_v0 : (⟨S10000x128, .f32⟩ : BufTy).Contents (Elt F) :=
  Host.dotGeneral dot_S10000x128_S128x128_S10000x128_1_0_0_1_n_n none (x0) (x3)

theorem lhs_main_v0_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem lhs_main_v0_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

theorem rhs_main_v0_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

theorem rhs_main_v0_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

abbrev lidx_main_v0 (i : S10000x128.Idx) (k : Fin 128) : S10000x128.Idx := fun a => match a with
  | ⟨0, _⟩ => ⟨(i 0).val, (i 0).isLt⟩
  | ⟨1, _⟩ => ⟨k.val, k.isLt⟩

abbrev ridx_main_v0 (i : S10000x128.Idx) (k : Fin 128) : S128x128.Idx := fun a => match a with
  | ⟨0, _⟩ => ⟨k.val, k.isLt⟩
  | ⟨1, _⟩ => ⟨(i 1).val, (i 1).isLt⟩

theorem val_main_v0_apply (x0 : (⟨S10000x128, .f32⟩ : BufTy).Contents (Elt Ideal)) (x3 : (⟨S128x128, .f32⟩ : BufTy).Contents (Elt Ideal)) (i : S10000x128.Idx) :
    val_main_v0 (F := Ideal) x0 x3 i = ∑ k : Fin 128, x0 (lidx_main_v0 i k) * x3 (ridx_main_v0 i k) := by
  unfold val_main_v0
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = lidx_main_v0 i k := funext fun a => Fin.ext (by
    match a with
    | ⟨0, _⟩ => exact lhs_main_v0_0 _ _
    | ⟨1, _⟩ => exact (lhs_main_v0_1 _ _).trans hk)
  have er : dot_S10000x128_S128x128_S10000x128_1_0_0_1_n_n.rhsIdx i ((ValueIdx.contrEquiv1 dot_S10000x128_S128x128_S10000x128_1_0_0_1_n_n 128 rfl rfl).symm k) = ridx_main_v0 i k := funext fun a => Fin.ext (by
    match a with
    | ⟨0, _⟩ => exact (rhs_main_v0_0 _ _).trans hk
    | ⟨1, _⟩ => exact rhs_main_v0_1 _ _)
  rw [el, er]

def val_main_v1 : (⟨S10000, .i32⟩ : BufTy).Contents (Elt F) :=
  iotaInDim S10000 32 0

def val_main_v2 : (⟨S1x640000, .i32⟩ : BufTy).Contents (Elt F) :=
  extractStridedSlice S1x640000 ![0, 0] (x1) slices_S2x640000_S1x640000_0_0

def val_main_v3 : (⟨S640000, .i32⟩ : BufTy).Contents (Elt F) :=
  shapeCast _ (val_main_v2 (F := F) x1) shapeCasts_S1x640000_S640000

def val_main_v4 : (⟨S650000, .i32⟩ : BufTy).Contents (Elt F) :=
  concatenate S650000 0 [⟨S640000, (val_main_v3 (F := F) x1)⟩, ⟨S10000, (val_main_v1 (F := F))⟩] concatenates_S640000_S10000_S650000_d0

def val_main_v5 : (⟨S1x640000, .i32⟩ : BufTy).Contents (Elt F) :=
  extractStridedSlice S1x640000 ![1, 0] (x1) slices_S2x640000_S1x640000_1_0

def val_main_v6 : (⟨S640000, .i32⟩ : BufTy).Contents (Elt F) :=
  shapeCast _ (val_main_v5 (F := F) x1) shapeCasts_S1x640000_S640000

def val_main_v7 : (⟨S650000, .i32⟩ : BufTy).Contents (Elt F) :=
  concatenate S650000 0 [⟨S640000, (val_main_v6 (F := F) x1)⟩, ⟨S10000, (val_main_v1 (F := F))⟩] concatenates_S640000_S10000_S650000_d0

def val_main_cst : (⟨S_, .f32⟩ : BufTy).Contents (Elt F) :=
  constant S_ .f32 0x3F800000#32

def val_main_v8 : (⟨S650000, .f32⟩ : BufTy).Contents (Elt F) :=
  broadcastInDim S650000 ![] bcast_S_S650000 (val_main_cst (F := F))

def val_main_cst_0 : (⟨S_, .f32⟩ : BufTy).Contents (Elt F) :=
  constant S_ .f32 0x00000000#32

def val_main_v9 : (⟨S10000, .f32⟩ : BufTy).Contents (Elt F) :=
  broadcastInDim S10000 ![] bcast_S_S10000 (val_main_cst_0 (F := F))

def val_main_v10 : (⟨S650000x1, .i32⟩ : BufTy).Contents (Elt F) :=
  broadcastInDim S650000x1 ![0] bcast_S650000_S650000x1_0 (val_main_v7 (F := F) x1)

def val_main_v11 : (⟨S10000, .f32⟩ : BufTy).Contents (Elt F) :=
  Host.scatterAdd scatter_S10000_S650000x1_S650000_n_0_0_1 (val_main_v9 (F := F)) (val_main_v10 (F := F) x1) (val_main_v8 (F := F))

def val_main_cst_1 : (⟨S_, .f32⟩ : BufTy).Contents (Elt F) :=
  constant S_ .f32 0x00000000#32

def val_main_v12 : (⟨S10000, .f32⟩ : BufTy).Contents (Elt F) :=
  broadcastInDim S10000 ![] bcast_S_S10000 (val_main_cst_1 (F := F))

def val_main_v13 : (⟨S10000, .i1⟩ : BufTy).Contents (Elt F) :=
  cmpf (F := F) .ogt (val_main_v11 (F := F) x1) (val_main_v12 (F := F))

def val_main_cst_2 : (⟨S_, .f32⟩ : BufTy).Contents (Elt F) :=
  constant S_ .f32 0x3F800000#32

def val_main_v14 : (⟨S10000, .f32⟩ : BufTy).Contents (Elt F) :=
  broadcastInDim S10000 ![] bcast_S_S10000 (val_main_cst_2 (F := F))

def val_main_v15 : (⟨S10000, .f32⟩ : BufTy).Contents (Elt F) :=
  maximumf (val_main_v11 (F := F) x1) (val_main_v14 (F := F))

def val_main_v16 : (⟨S10000, .f32⟩ : BufTy).Contents (Elt F) :=
  Host.rsqrt (val_main_v15 (F := F) x1)

def val_main_cst_3 : (⟨S_, .f32⟩ : BufTy).Contents (Elt F) :=
  constant S_ .f32 0x00000000#32

def val_main_call0_v0 : (⟨S_, .f32⟩ : BufTy).Contents (Elt F) :=
  id (val_main_cst_3 (F := F))

def val_main_call0_v1 : (⟨S10000, .f32⟩ : BufTy).Contents (Elt F) :=
  broadcastInDim S10000 ![] bcast_S_S10000 (val_main_call0_v0 (F := F))

def val_main_v17 : (⟨S10000, .f32⟩ : BufTy).Contents (Elt F) :=
  select (val_main_v13 (F := F) x1) (val_main_v16 (F := F) x1) (val_main_call0_v1 (F := F))

def val_main_c : (⟨S_, .i32⟩ : BufTy).Contents (Elt F) :=
  constantI S_ 32 0#32

def val_main_v18 : (⟨S650000, .i32⟩ : BufTy).Contents (Elt F) :=
  broadcastInDim S650000 ![] bcast_S_S650000 (val_main_c (F := F))

def val_main_v19 : (⟨S650000, .i1⟩ : BufTy).Contents (Elt F) :=
  cmpi .slt (val_main_v4 (F := F) x1) (val_main_v18 (F := F))

def val_main_c_4 : (⟨S_, .i32⟩ : BufTy).Contents (Elt F) :=
  constantI S_ 32 10000#32

def val_main_v20 : (⟨S650000, .i32⟩ : BufTy).Contents (Elt F) :=
  broadcastInDim S650000 ![] bcast_S_S650000 (val_main_c_4 (F := F))

def val_main_v21 : (⟨S650000, .i32⟩ : BufTy).Contents (Elt F) :=
  addi (val_main_v4 (F := F) x1) (val_main_v20 (F := F))

def val_main_v22 : (⟨S650000, .i32⟩ : BufTy).Contents (Elt F) :=
  select (val_main_v19 (F := F) x1) (val_main_v21 (F := F) x1) (val_main_v4 (F := F) x1)

def val_main_v23 : (⟨S650000x1, .i32⟩ : BufTy).Contents (Elt F) :=
  broadcastInDim S650000x1 ![0] bcast_S650000_S650000x1_0 (val_main_v22 (F := F) x1)

def val_main_v24 : (⟨S650000, .f32⟩ : BufTy).Contents (Elt F) :=
  Host.gather gather_S10000_S650000x1_S650000_n_0_n_n_0_1_1 (val_main_v17 (F := F) x1) (val_main_v23 (F := F) x1)

def val_main_c_5 : (⟨S_, .i32⟩ : BufTy).Contents (Elt F) :=
  constantI S_ 32 0#32

def val_main_v25 : (⟨S650000, .i32⟩ : BufTy).Contents (Elt F) :=
  broadcastInDim S650000 ![] bcast_S_S650000 (val_main_c_5 (F := F))

def val_main_v26 : (⟨S650000, .i1⟩ : BufTy).Contents (Elt F) :=
  cmpi .slt (val_main_v7 (F := F) x1) (val_main_v25 (F := F))

def val_main_c_6 : (⟨S_, .i32⟩ : BufTy).Contents (Elt F) :=
  constantI S_ 32 10000#32

def val_main_v27 : (⟨S650000, .i32⟩ : BufTy).Contents (Elt F) :=
  broadcastInDim S650000 ![] bcast_S_S650000 (val_main_c_6 (F := F))

def val_main_v28 : (⟨S650000, .i32⟩ : BufTy).Contents (Elt F) :=
  addi (val_main_v7 (F := F) x1) (val_main_v27 (F := F))

def val_main_v29 : (⟨S650000, .i32⟩ : BufTy).Contents (Elt F) :=
  select (val_main_v26 (F := F) x1) (val_main_v28 (F := F) x1) (val_main_v7 (F := F) x1)

def val_main_v30 : (⟨S650000x1, .i32⟩ : BufTy).Contents (Elt F) :=
  broadcastInDim S650000x1 ![0] bcast_S650000_S650000x1_0 (val_main_v29 (F := F) x1)

def val_main_v31 : (⟨S650000, .f32⟩ : BufTy).Contents (Elt F) :=
  Host.gather gather_S10000_S650000x1_S650000_n_0_n_n_0_1_1 (val_main_v17 (F := F) x1) (val_main_v30 (F := F) x1)

def val_main_v32 : (⟨S650000, .f32⟩ : BufTy).Contents (Elt F) :=
  mulf (val_main_v24 (F := F) x1) (val_main_v31 (F := F) x1)

theorem val_main_v32_apply (i : S650000.Idx) :
    val_main_v32 (F := F) x1 i = FloatOps.mulf (val_main_v24 (F := F) x1 i) (val_main_v31 (F := F) x1 i) := rfl

def val_main_v33 : (⟨S650000x1, .f32⟩ : BufTy).Contents (Elt F) :=
  broadcastInDim S650000x1 ![0] bcast_S650000_S650000x1_0 (val_main_v32 (F := F) x1)

def val_main_c_7 : (⟨S_, .i32⟩ : BufTy).Contents (Elt F) :=
  constantI S_ 32 0#32

def val_main_v34 : (⟨S650000, .i32⟩ : BufTy).Contents (Elt F) :=
  broadcastInDim S650000 ![] bcast_S_S650000 (val_main_c_7 (F := F))

def val_main_v35 : (⟨S650000, .i1⟩ : BufTy).Contents (Elt F) :=
  cmpi .slt (val_main_v4 (F := F) x1) (val_main_v34 (F := F))

def val_main_c_8 : (⟨S_, .i32⟩ : BufTy).Contents (Elt F) :=
  constantI S_ 32 10000#32

def val_main_v36 : (⟨S650000, .i32⟩ : BufTy).Contents (Elt F) :=
  broadcastInDim S650000 ![] bcast_S_S650000 (val_main_c_8 (F := F))

def val_main_v37 : (⟨S650000, .i32⟩ : BufTy).Contents (Elt F) :=
  addi (val_main_v4 (F := F) x1) (val_main_v36 (F := F))

def val_main_v38 : (⟨S650000, .i32⟩ : BufTy).Contents (Elt F) :=
  select (val_main_v35 (F := F) x1) (val_main_v37 (F := F) x1) (val_main_v4 (F := F) x1)

def val_main_v39 : (⟨S650000x1, .i32⟩ : BufTy).Contents (Elt F) :=
  broadcastInDim S650000x1 ![0] bcast_S650000_S650000x1_0 (val_main_v38 (F := F) x1)

def val_main_v40 : (⟨S650000x128, .f32⟩ : BufTy).Contents (Elt F) :=
  Host.gather gather_S10000x128_S650000x1_S650000x128_1_0_n_n_0_1_1128 (val_main_v0 (F := F) x0 x3) (val_main_v39 (F := F) x1)

def val_main_v41 : (⟨S650000x128, .f32⟩ : BufTy).Contents (Elt F) :=
  broadcastInDim S650000x128 ![0, 1] bcast_S650000x1_S650000x128_0_1 (val_main_v33 (F := F) x1)

abbrev idx_main_v41 (i : S650000x128.Idx) : S650000x1.Idx := fun a => match a with
  | ⟨0, _⟩ => ⟨(i 0).val, (i 0).isLt⟩
  | ⟨1, _⟩ => ⟨0, Nat.one_pos⟩

theorem val_main_v41_apply (i : S650000x128.Idx) :
    val_main_v41 (F := F) x1 i = val_main_v33 (F := F) x1 (idx_main_v41 i) := by
  unfold val_main_v41
  generalize val_main_v33 (F := F) x1 = y
  exact broadcastInDim_apply _ bcast_S650000x1_S650000x128_0_1 y i (idx_main_v41 i) (fun a => match a with
    | ⟨0, _⟩ => by show (i 0).val = if (650000 : Nat) = 1 then 0 else (i 0).val; rw [if_neg (by decide)]
    | ⟨1, _⟩ => by show 0 = if (1 : Nat) = 1 then 0 else (i 1).val; rw [if_pos rfl])

def val_main_v42 : (⟨S650000x128, .f32⟩ : BufTy).Contents (Elt F) :=
  mulf (val_main_v41 (F := F) x1) (val_main_v40 (F := F) x0 x1 x3)

theorem val_main_v42_apply (i : S650000x128.Idx) :
    val_main_v42 (F := F) x0 x1 x3 i = FloatOps.mulf (val_main_v41 (F := F) x1 i) (val_main_v40 (F := F) x0 x1 x3 i) := rfl

def val_main_cst_9 : (⟨S_, .f32⟩ : BufTy).Contents (Elt F) :=
  constant S_ .f32 0x00000000#32

def val_main_v43 : (⟨S10000x128, .f32⟩ : BufTy).Contents (Elt F) :=
  broadcastInDim S10000x128 ![] bcast_S_S10000x128 (val_main_cst_9 (F := F))

def val_main_v44 : (⟨S650000x1, .i32⟩ : BufTy).Contents (Elt F) :=
  broadcastInDim S650000x1 ![0] bcast_S650000_S650000x1_0 (val_main_v7 (F := F) x1)

def val_main_v45 : (⟨S10000x128, .f32⟩ : BufTy).Contents (Elt F) :=
  Host.scatterAdd scatter_S10000x128_S650000x1_S650000x128_1_0_0_1 (val_main_v43 (F := F)) (val_main_v44 (F := F) x1) (val_main_v42 (F := F) x0 x1 x3)

def val_main_v46 : (⟨S1x128, .f32⟩ : BufTy).Contents (Elt F) :=
  broadcastInDim S1x128 ![1] bcast_S128_S1x128_1 (x4)

abbrev idx_main_v46 (i : S1x128.Idx) : S128.Idx := fun a => match a with
  | ⟨0, _⟩ => ⟨(i 1).val, (i 1).isLt⟩

theorem val_main_v46_apply (i : S1x128.Idx) :
    val_main_v46 (F := F) x4 i = x4 (idx_main_v46 i) := by
  unfold val_main_v46
  exact broadcastInDim_apply _ bcast_S128_S1x128_1 x4 i (idx_main_v46 i) (fun a => match a with
    | ⟨0, _⟩ => by show (i 1).val = if (128 : Nat) = 1 then 0 else (i 1).val; rw [if_neg (by decide)])

def val_main_v47 : (⟨S10000x128, .f32⟩ : BufTy).Contents (Elt F) :=
  broadcastInDim S10000x128 ![0, 1] bcast_S1x128_S10000x128_0_1 (val_main_v46 (F := F) x4)

abbrev idx_main_v47 (i : S10000x128.Idx) : S1x128.Idx := fun a => match a with
  | ⟨0, _⟩ => ⟨0, Nat.one_pos⟩
  | ⟨1, _⟩ => ⟨(i 1).val, (i 1).isLt⟩

theorem val_main_v47_apply (i : S10000x128.Idx) :
    val_main_v47 (F := F) x4 i = val_main_v46 (F := F) x4 (idx_main_v47 i) := by
  unfold val_main_v47
  generalize val_main_v46 (F := F) x4 = y
  exact broadcastInDim_apply _ bcast_S1x128_S10000x128_0_1 y i (idx_main_v47 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v48 : (⟨S10000x128, .f32⟩ : BufTy).Contents (Elt F) :=
  addf (val_main_v45 (F := F) x0 x1 x3) (val_main_v47 (F := F) x4)

theorem val_main_v48_apply (i : S10000x128.Idx) :
    val_main_v48 (F := F) x0 x1 x3 x4 i = FloatOps.addf (val_main_v45 (F := F) x0 x1 x3 i) (val_main_v47 (F := F) x4 i) := rfl

end Cert.ReferenceIdeal.ReadP

end
-- ==== Proof.RefTail.lean ====
import proofs.«419665_j81406810129006_3_alg».proof.Defs
import proofs.«419665_j81406810129006_3_alg».proof.Proof.RefRun
import proofs.«419665_j81406810129006_3_alg».proof.Proof.RefRead
import proofs.«419665_j81406810129006_3_alg».proof.Proof.Gen.ReferenceIdeal
import proofs.«419665_j81406810129006_3_alg».proof.Proof.Gen.Pre_finite_inputs
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

def clampAtZero (z : FVec F S10000x128 .f32) : FVec F S10000x128 .f32 :=
  maximumf z (broadcastInDim S10000x128 ![] bcast_S_S10000x128 (constant (F := F) S_ .f32 0x00000000#32))

def graphSum (h : FVec F S10000x128 .f32) (bi : IVec S10000 32) : FVec F S64x128 .f32 :=
  Host.scatterAdd scatter_S64x128_S10000x1_S10000x128_1_0_0_1
    (broadcastInDim S64x128 ![] bcast_S_S64x128 (constant (F := F) S_ .f32 0x00000000#32))
    (broadcastInDim S10000x1 ![0] bcast_S10000_S10000x1_0 bi)
    h

def graphSize (bi : IVec S10000 32) : FVec F S64 .f32 :=
  maximumf
    (Host.scatterAdd scatter_S64_S10000x1_S10000_n_0_0_1
      (broadcastInDim S64 ![] bcast_S_S64 (constant (F := F) S_ .f32 0x00000000#32))
      (broadcastInDim S10000x1 ![0] bcast_S10000_S10000x1_0 bi)
      (broadcastInDim S10000 ![] bcast_S_S10000 (constant (F := F) S_ .f32 0x3F800000#32)))
    (broadcastInDim S64 ![] bcast_S_S64 (constant (F := F) S_ .f32 0x3F800000#32))

def graphMean (h : FVec F S10000x128 .f32) (bi : IVec S10000 32) : FVec F S64x128 .f32 :=
  Host.divf (graphSum h bi)
    (broadcastInDim S64x128 ![0, 1] bcast_S64x1_S64x128_0_1
      (broadcastInDim S64x1 ![0] bcast_S64_S64x1_0 (graphSize (F := F) bi)))

def classScore (p : FVec F S64x128 .f32) (Wfc : FVec F S128x2 .f32) (bfc : FVec F S2 .f32) : FVec F S64x2 .f32 :=
  addf (Host.dotGeneral dot_S64x128_S128x2_S64x2_1_0_0_1_n_n none p Wfc)
    (broadcastInDim S64x2 ![0, 1] bcast_S1x2_S64x2_0_1 (broadcastInDim S1x2 ![1] bcast_S2_S1x2_1 bfc))

def lessRowMax (y : FVec F S64x2 .f32) : FVec F S64x2 .f32 :=
  subf y
    (broadcastInDim S64x2 ![0, 1] bcast_S64x1_S64x2_0_1
      (broadcastInDim S64x1 ![0] bcast_S64_S64x1_0
        (maximumf (broadcastInDim S64 ![] bcast_S_S64 (constant (F := F) S_ .f32 0xFF800000#32))
          (Host.reduce FloatOps.maximumf y (constant (F := F) S_ .f32 0xFF800000#32) reducesTo_S64x2_S64_d1 h_S_))))

def logNormalise (y : FVec F S64x2 .f32) : FVec F S64x2 .f32 :=
  subf (lessRowMax y)
    (broadcastInDim S64x2 ![0, 1] bcast_S64x1_S64x2_0_1
      (Host.log
        (broadcastInDim S64x1 ![0] bcast_S64_S64x1_0
          (Host.reduceAdd (Host.exp (lessRowMax y)) (constant (F := F) S_ .f32 0x00000000#32) reducesTo_S64x2_S64_d1 h_S_))))

def refTail (z : FVec F S10000x128 .f32) (bi : IVec S10000 32) (Wfc : FVec F S128x2 .f32) (bfc : FVec F S2 .f32) :
    FVec F S64x2 .f32 :=
  logNormalise (classScore (graphMean (clampAtZero z) bi) Wfc bfc)

def refPre (m : (ℓ : Loc nD τ sig) → Buf (Elt F) ℓ) (c : Dev nD) : FVec F S10000x128 .f32 :=
  ReadP.val_main_v48 (F := F) (m ((c.tc : Thread nD τ).loc main_arg0)) (m ((c.tc : Thread nD τ).loc main_arg1))
    (m ((c.tc : Thread nD τ).loc main_arg3)) (m ((c.tc : Thread nD τ).loc main_arg4))

theorem refPre_eq (m : (ℓ : Loc nD τ sig) → Buf (Elt F) ℓ) (c : Dev nD) :
    refPre (F := F) m c
      = ReadP.val_main_v48 (F := F) (m ((c.tc : Thread nD τ).loc main_arg0)) (m ((c.tc : Thread nD τ).loc main_arg1))
          (m ((c.tc : Thread nD τ).loc main_arg3)) (m ((c.tc : Thread nD τ).loc main_arg4)) := rfl

end Cert.ReferenceIdeal.RefValue

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The reference's result: the tail applied to the pre-activation of the argument arrays. -/
abbrev res_out0 (m : (ℓ : Loc nD τ sig) → Buf (Elt F) ℓ) (c : Dev nD) : Buf (Elt F) ((c.tc : Thread nD τ).loc main_v66) :=
  RefValue.refTail (RefValue.refPre m c) (m ((c.tc : Thread nD τ).loc main_arg2)) (m ((c.tc : Thread nD τ).loc main_arg5)) (m ((c.tc : Thread nD τ).loc main_arg6))

set_option maxRecDepth 8192 in
set_option maxHeartbeats 40400000 in
/-- Every weakly fair execution of the reference ends with the result buffer at `res_out0` and the arguments unchanged:
    the operations' composed term unfolds, stage by stage, to the tail of the pre-activation. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = res_out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v66).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.ValueP

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem res_eq (m : (ℓ : Loc nD τ sig) → Buf (Elt F) ℓ) (c : Dev nD) :
    ValueP.res_out0 (F := F) m c
      = refTail (refPre m c) (m ((c.tc : Thread nD τ).loc main_arg2)) (m ((c.tc : Thread nD τ).loc main_arg5)) (m ((c.tc : Thread nD τ).loc main_arg6)) := rfl

theorem frame_ri [hR : Cert.ReferenceIdeal.Facts] [hP : Cert.Pre_finite_inputs.Facts] : Cert.frame_ReferenceIdeal :=
  fun m ρ _ => (θ_run Cert.ReferenceIdeal.defs _ _).mono (fun _ h c => (h c).2) (ValueP.run (F := Ideal) m ρ)

end Cert.ReferenceIdeal.RefValue

end
-- ==== Proof.Spec.lean ====
import Idealize.ShloMosaic.PureOps.Ideal
import Idealize.ShloMosaic.Lib.ValueIdx

noncomputable section

namespace Cert.Spec

open Idealize.ShloMosaic ValueIdx

abbrev Sx : Shape := ⟨2, ![10000, 128]⟩
abbrev Sei : Shape := ⟨2, ![2, 640000]⟩
abbrev Sw : Shape := ⟨2, ![128, 128]⟩
abbrev Sb : Shape := ⟨1, ![128]⟩

variable (ei : Sei.Idx → BitVec 32) (x : Sx.Idx → EReal) (W : Sw.Idx → EReal) (b : Sb.Idx → EReal)

def InRange : Prop := ∀ i, (0 : ℤ) ≤ (ei i).toInt ∧ (ei i).toInt < 10000

def Finite : Prop := (∀ i, ∃ r : ℝ, x i = (r : EReal)) ∧ (∀ i, ∃ r : ℝ, W i = (r : EReal))

def srcId (e : Fin 650000) : ℕ :=
  if h : e.val < 640000 then (ei (ix2 (0 : Fin 2) (⟨e.val, h⟩ : Fin 640000))).toNat else e.val - 640000

def dstId (e : Fin 650000) : ℕ :=
  if h : e.val < 640000 then (ei (ix2 (1 : Fin 2) (⟨e.val, h⟩ : Fin 640000))).toNat else e.val - 640000

def indeg (n : ℕ) : ℕ := (Finset.univ.filter fun e : Fin 650000 => dstId ei e = n).card

def dinv (n : ℕ) : EReal :=
  if 0 < indeg ei n then Ideal.rsqrt (max ((indeg ei n : ℝ) : EReal) ((1 : ℝ) : EReal)) else 0

def feat (n : ℕ) (k : Fin 128) : EReal :=
  if h : n < 10000 then ∑ f : Fin 128, x (ix2 (⟨n, h⟩ : Fin 10000) f) * W (ix2 f k) else 0

def preact (n : Fin 10000) (k : Fin 128) : EReal :=
  (∑ e : Fin 650000, if dstId ei e = n.val then (dinv ei (srcId ei e) * dinv ei (dstId ei e)) * feat x W (srcId ei e) k else 0)
    + b (ix1 k)

def srcPad (q : Fin 651264) : ℕ := if h : q.val < 650000 then srcId ei ⟨q.val, h⟩ else 10000

def dstPad (q : Fin 651264) : ℕ := if h : q.val < 650000 then dstId ei ⟨q.val, h⟩ else 10000

def hsRow (j : ℕ) (k : Fin 128) : EReal := feat x W j k * dinv ei j

def halfSum (σ : Fin 651264 → Fin 651264) (core : Fin 2) (n : ℕ) (k : Fin 128) : EReal :=
  ∑ p : Fin 325632, if dstPad ei (σ ⟨core.val * 325632 + p.val, by have := core.isLt; have := p.isLt; omega⟩) = n
    then hsRow ei x W (srcPad ei (σ ⟨core.val * 325632 + p.val, by have := core.isLt; have := p.isLt; omega⟩)) k else 0

end Cert.Spec

end
-- ==== Proof.KernelTail.lean ====
import proofs.«419665_j81406810129006_3_alg».proof.Proof.Gen.KernelIdeal.Regions
import proofs.«419665_j81406810129006_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx

section anyFloat
variable {F : FTy → Type} [FloatOps F]

/-- After the pre-activation: maximum with zero, each graph's mean row, the read-out, and the row-wise log-softmax. -/
def kTail (z : FVec F S10000x128 .f32) (bi : IVec S10000 32) (Wfc : FVec F S128x2 .f32) (bfc : FVec F S2 .f32) :
    FVec F S64x2 .f32 :=
  let zero := constant (F := F) S_ .f32 0x00000000#32
  let one := constant (F := F) S_ .f32 0x3F800000#32
  let ninf := constant (F := F) S_ .f32 0xFF800000#32
  let ids := broadcastInDim S10000x1 ![0] bcast_S10000_S10000x1_0 bi
  let y :=
    addf
      (Host.dotGeneral dot_S64x128_S128x2_S64x2_1_0_0_1_n_n none
        (Host.divf
          (Host.scatterAdd scatter_S64x128_S10000x1_S10000x128_1_0_0_1 (broadcastInDim S64x128 ![] bcast_S_S64x128 zero) ids
            (maximumf z (broadcastInDim S10000x128 ![] bcast_S_S10000x128 zero)))
          (broadcastInDim S64x128 ![0, 1] bcast_S64x1_S64x128_0_1
            (broadcastInDim S64x1 ![0] bcast_S64_S64x1_0
              (maximumf
                (Host.scatterAdd scatter_S64_S10000x1_S10000_n_0_0_1 (broadcastInDim S64 ![] bcast_S_S64 zero) ids
                  (broadcastInDim S10000 ![] bcast_S_S10000 one))
                (broadcastInDim S64 ![] bcast_S_S64 one)))))
        Wfc)
      (broadcastInDim S64x2 ![0, 1] bcast_S1x2_S64x2_0_1 (broadcastInDim S1x2 ![1] bcast_S2_S1x2_1 bfc))
  let centred :=
    subf y
      (broadcastInDim S64x2 ![0, 1] bcast_S64x1_S64x2_0_1
        (broadcastInDim S64x1 ![0] bcast_S64_S64x1_0
          (maximumf (broadcastInDim S64 ![] bcast_S_S64 ninf) (Host.reduce FloatOps.maximumf y ninf reducesTo_S64x2_S64_d1 h_S_))))
  subf centred
    (broadcastInDim S64x2 ![0, 1] bcast_S64x1_S64x2_0_1
      (Host.log (broadcastInDim S64x1 ![0] bcast_S64_S64x1_0 (Host.reduceAdd (Host.exp centred) zero reducesTo_S64x2_S64_d1 h_S_))))

variable (m : (ℓ : Loc nD τ sig) → Buf (Elt F) ℓ) (outs : Outs (F := F)) (c : Dev nD)

/-- The last three stretches of operations compute `kTail` of the pre-activation and leave the arguments as they were. -/
theorem tail_eq :
    V16 m outs c main_v92
      = kTail (V13 m outs c main_v74) (m ((c : Thread nD τ).loc main_arg2)) (m ((c : Thread nD τ).loc main_arg5))
          (m ((c : Thread nD τ).loc main_arg6)) := by
  rw [← V16_main_arg2 m outs c, ← V16_main_arg5 m outs c, ← V16_main_arg6 m outs c]
  unfold V16 V15 V14
  generalize V13 m outs c = W
  after_results_simp
  rfl

end anyFloat

section ideal

/-- Node `n`'s scale times the sum of the two partial sums at `(n, k)`, plus feature `k`'s bias. -/
abbrev preactEntry (d : S10000.Idx → EReal) (p : S2x10240x128.Idx → EReal) (b : S128.Idx → EReal)
    (n : Fin 10000) (k : Fin 128) : EReal :=
  d (ValueIdx.ix1 n)
      * (p (ValueIdx.ix3 (0 : Fin 2) (⟨n.val, Nat.lt_of_lt_of_le n.isLt (by decide)⟩ : Fin 10240) k)
        + p (ValueIdx.ix3 (1 : Fin 2) (⟨n.val, Nat.lt_of_lt_of_le n.isLt (by decide)⟩ : Fin 10240) k))
    + b (ValueIdx.ix1 k)

variable (m : (ℓ : Loc nD τ sig) → Buf (Elt Ideal) ℓ) (outs : Outs (F := Ideal)) (c : Dev nD)

/-- Each layout operation of the assembling stretch reads one entry of its operand; no later stretch writes an argument. -/
theorem preact_apply (n : Fin 10000) (k : Fin 128) :
    V13 m outs c main_v74 (ValueIdx.ix2 n k)
      = preactEntry (V9 m c main_v16) (outs 12 main_v62 c) (m ((c : Thread nD τ).loc main_arg4)) n k := by
  rw [← V16_main_arg4 m outs c,
    ← (V12_of m outs c main_v16 (by decide)).trans ((V11_of m outs c main_v16 (by decide)).trans (V10_of m outs c main_v16 (by decide))),
    ← show V12 m outs c main_v62 = outs 12 main_v62 c from Function.update_self ..]
  unfold V16 V15 V14 V13
  generalize V12 m outs c = W
  after_results_simp
  rw [addf_apply, mulf_apply,
    broadcastInDim_apply ![0, 1] bcast_S10000x1_S10000x128_0_1 _ (ix2 n k) (ix2 n (0 : Fin 1)) (Fin.forall_fin_two.2 ⟨rfl, rfl⟩),
    broadcastInDim_apply ![0] bcast_S10000_S10000x1_0 _ (ix2 n (0 : Fin 1)) (ValueIdx.ix1 n) (fun a => by match a with | ⟨0, _⟩ => rfl),
    broadcastInDim_apply ![0, 1] bcast_S1x128_S10000x128_0_1 _ (ix2 n k) (ix2 (0 : Fin 1) k) (Fin.forall_fin_two.2 ⟨rfl, rfl⟩),
    broadcastInDim_apply ![1] bcast_S128_S1x128_1 _ (ix2 (0 : Fin 1) k) (ValueIdx.ix1 k) (fun a => by match a with | ⟨0, _⟩ => rfl),
    slice2_axis0_apply 0 _ slices_S10240x128_S10000x128_0_0 n k ⟨n.val, Nat.lt_of_lt_of_le n.isLt (by decide)⟩ (Nat.zero_add _).symm,
    addf_apply]
  show _ * (shapeCast S10240x128 _ _ _ + shapeCast S10240x128 _ _ _) + _ = _
  rw [shapeCast_1ab_ab_apply, shapeCast_1ab_ab_apply,
    extractStridedSlice_apply ![0, 0, 0] _ slices_S2x10240x128_S1x10240x128_0_0_0 (ix3 (0 : Fin 1) _ k) (ix3 (0 : Fin 2) _ k)
      (fun a => by match a with | ⟨0, _⟩ => rfl | ⟨1, _⟩ | ⟨2, _⟩ => exact (Nat.zero_add _).symm),
    extractStridedSlice_apply ![1, 0, 0] _ slices_S2x10240x128_S1x10240x128_1_0_0 (ix3 (0 : Fin 1) _ k) (ix3 (1 : Fin 2) _ k)
      (fun a => by match a with | ⟨0, _⟩ => rfl | ⟨1, _⟩ | ⟨2, _⟩ => exact (Nat.zero_add _).symm)]

end ideal

end Cert.KernelIdeal.Hand

end
-- ==== Proof.FusedValue.lean ====
import proofs.«419665_j81406810129006_3_alg».proof.Proof.FusedDat
import Idealize.ShloMosaic.Lib.ValueIdx

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- Point t is step t mod 318 of core t div 318, and 318 · core + step, formed in 32-bit words, is t again. -/
theorem point_words : ∀ t : Fin grid1.N,
    (Scalar.addi (Scalar.muli (BitVec.ofNat 32 (grid1.coords t 0).val) 318#32) (BitVec.ofNat 32 (grid1.coords t 1).val)).toNat = t.val
      ∧ (BitVec.ofNat 32 (grid1.coords t 0).val).toNat = t.val / 318 := by decide +kernel

/-- Step e of core co as a point of the grid (e is taken modulo 318, so that every number names a step). -/
def pt (co : Fin 2) (e : ℕ) : Fin (cfgF V).N :=
  ⟨318 * co.val + e % 318, by have : (cfgF V).N = 636 := N_1; omega⟩

/-- Slot r of the two id blocks at point t is position 1024·t + r of the sorted source and destination lists. -/
theorem ids_slot (c : Dev nD) (t : Fin (cfgF V).N) (r : Fin 1024) (p : Fin 651264) (hp : p.val = 1024 * t.val + r.val) :
    (inBlock V c 0 t : Vec Ideal S1024 .i32) (ValueIdx.ix1 r) = (V c main_v28 : S651264.Idx → BitVec 32) (ValueIdx.ix1 p)
      ∧ (inBlock V c 1 t : Vec Ideal S1024 .i32) (ValueIdx.ix1 r) = (V c main_v35 : S651264.Idx → BitVec 32) (ValueIdx.ix1 p) := by
  have h : ∀ x : ℕ, x = t.val → x * 1024 + 1 * r.val = p.val := by omega
  exact ⟨congrArg (V c main_v28 : S651264.Idx → BitVec 32) (funext fun b => Fin.ext (match b with | ⟨0, _⟩ => h _ (point_words t).1)),
    congrArg (V c main_v35 : S651264.Idx → BitVec 32) (funext fun b => Fin.ext (match b with | ⟨0, _⟩ => h _ (point_words t).1))⟩

/-- Every point sees all of the scaled feature rows. -/
theorem feat_rows (c : Dev nD) (t : Fin (cfgF V).N) (y : S10240x128.Idx) :
    (inBlock V c 2 t : Vec Ideal S10240x128 .bf16) y = (V c main_v39 : S10240x128.Idx → EReal) y :=
  congrArg (V c main_v39 : S10240x128.Idx → EReal) (funext fun b => Fin.ext (match b with
    | ⟨0, _⟩ => by show 0 * 10240 + 1 * (y 0).val = (y 0).val; omega
    | ⟨1, _⟩ => by show 0 * 128 + 1 * (y 1).val = (y 1).val; omega))

/-- Entry (0, n, k) of the slab of a core's last point is entry (core, n, k) of the output array. -/
theorem out_slab_entry (co : Fin 2) (n : Fin 10240) (k : Fin 128) :
    (((cfgF V).win 3).blk (pt V co 317)).view.emb (ValueIdx.ix3 (0 : Fin 1) n k) = ValueIdx.ix3 co n k :=
  have h : ∀ x : ℕ, x = (pt V co 317).val / 318 → x * 1 + 1 * 0 = co.val := fun x hx => by
    rw [hx]; show (318 * co.val + 317 % 318) / 318 * 1 + 1 * 0 = co.val; omega
  funext fun b => Fin.ext (match b with
    | ⟨0, _⟩ => h _ (point_words (pt V co 317)).2
    | ⟨1, _⟩ => by show 0 * 10240 + 1 * n.val = n.val; omega
    | ⟨2, _⟩ => by show 0 * 128 + 1 * k.val = k.val; omega)

end Cert.KernelIdeal.Hand

end
-- ==== Proof.FusedStep.lean ====
import proofs.«419665_j81406810129006_3_alg».proof.Proof.FusedBody
import Idealize.ShloMosaic.Lib.ValueLayout
import Idealize.ShloMosaic.Lib.StackMember
import Idealize.ShloMosaic.Lib.KernelVsHost
import Idealize.ShloMosaic.Lib.WritesUnit
import Idealize.ShloMosaic.PureOps.Ideal.Laws

noncomputable section

namespace Cert.KernelIdeal.Hand

open Gen Idealize.ShloMosaic
open Idealize.ShloMosaic.ValueIdx Idealize.ShloMosaic.StackMember

/-- Two numbers whose sum stays below 2³² add as words without wrapping. -/
theorem ofNat_add_eq_iff (o p : ℕ) (h : o + p < 2 ^ 32) (d : BitVec 32) :
    BitVec.ofNat 32 o + BitVec.ofNat 32 p = d ↔ d.toNat = o + p := by
  rw [← BitVec.ofNat_add, BitVec.toNat_eq, BitVec.toNat_ofNat, Nat.mod_eq_of_lt h, eq_comm]

/-- The comparison bit, widened and converted, is 1 where the two words agree and 0 elsewhere. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b <;> simp [IntOp.cmpi, h]

/-- A 0/1 matrix times `R`: as 0 · y = 0 and 1 · y = y for every extended real y, entry (a, b) adds the entries (q, b) of `R` over the q that row a marks. -/
theorem onehot_matmul {m k n : ℕ} (A B : IVec ⟨2, ![m, k]⟩ 32) (R : FVec Ideal ⟨2, ![k, n]⟩ .bf16) (a : Fin m) (b : Fin n) :
    matmul (DotDims.plain m k n) none (truncf .bf16 (sitofp .f32 (extui 32 (cmpi .eq A B) natLt_1_32)) bitsLt_bf16_f32) R
        (constant _ .f32 0x00000000#32) (ix2 a b)
      = ∑ q : Fin k, if A (ix2 a q) = B (ix2 a q) then R (ix2 q b) else 0 := by
  rw [matmul_zero_eq_dotGeneral, dotGeneral_plain_apply]
  exact Finset.sum_congr rfl fun q _ => (congrArg (· * R (ix2 q b)) (onehot_word _ _)).trans (boole_mul _ _)

/-- One node tile's update: its rows as they were, plus the 0/1 matrix "edge r ends at node o + p" times the gathered rows. -/
def scatterTile (o : BitVec 32) (dst : IVec S1024 32) (rows : FVec Ideal S1024x128 .bf16) (prev : Vec Ideal S2048x128 .f32) :
    FVec Ideal S2048x128 .f32 :=
  shapeCast S2048x128
    (addf prev
      (matmul dot_S2048x1024_S1024x128_S2048x128_1_0_0_1_n_n none
        (truncf .bf16 (sitofp .f32 (extui 32 (cmpi .eq
          (broadcastTo S2048x1024 (addi (broadcast S2048x1 o) (iota .tc S2048x1 32 [0] iota_S2048x1_d0_w32)) broadcasts_S2048x1_S2048x1024)
          (broadcastTo S2048x1024 (shapeCast S1x1024 dst shapeCasts_S1024_S1x1024) broadcasts_S1x1024_S2048x1024)) natLt_1_32)) bitsLt_bf16_f32)
        rows (constant S2048x128 .f32 0x00000000#32)))
    shapeCasts_S2048x128_S2048x128

/-- What the block's edges that end at node `n` bring to column `k`. -/
def inSum (dst : IVec S1024 32) (rows : FVec Ideal S1024x128 .bf16) (n : ℕ) (k : Fin 128) : EReal :=
  ∑ r : Fin 1024, if (dst (ValueIdx.ix1 r)).toNat = n then rows (ix2 r k) else 0

theorem scatterTile_apply (o : ℕ) (dst : IVec S1024 32) (rows : FVec Ideal S1024x128 .bf16) (prev : Vec Ideal S2048x128 .f32)
    (p : Fin 2048) (k : Fin 128) (ho : o + p < 2 ^ 32) :
    scatterTile (BitVec.ofNat 32 o) dst rows prev (ix2 p k) = prev (ix2 p k) + inSum dst rows (o + p) k := by
  unfold scatterTile
  rw [shapeCast_self]
  refine congrArg (prev (ix2 p k) + ·) ((onehot_matmul _ _ rows p k).trans (Finset.sum_congr rfl fun r _ => if_congr ?_ rfl rfl))
  rw [broadcastTo_1b_ab_apply, shapeCast_a_1a_apply,
    broadcastTo_apply _ _ _ (ix2 p (0 : Fin 1)) fun a => by match a with | ⟨0, _⟩ => rfl | ⟨1, _⟩ => rfl]
  show IntOp.addi _ (iota .tc S2048x1 32 [0] iota_S2048x1_d0_w32 _) = _ ↔ _
  rw [iota_single_apply]
  exact ofNat_add_eq_iff o p ho _

/-- One feature tile's share of the gathered rows: the 0/1 matrix "edge r starts at node o + q" times the tile's rows. -/
def gatherTile (o : BitVec 32) (src : Vec Ideal S1024 .i32) (blk : Vec Ideal S2048x128 .bf16) : FVec Ideal S1024x128 .f32 :=
  matmul dot_S1024x2048_S2048x128_S1024x128_1_0_0_1_n_n none
    (truncf .bf16 (sitofp .f32 (extui 32 (cmpi .eq
      (broadcastTo S1024x2048 (shapeCast S1024x1 (shapeCast S1024 src shapeCasts_S1024_S1024) shapeCasts_S1024_S1024x1) broadcasts_S1024x1_S1024x2048)
      (broadcastTo S1024x2048 (addi (broadcast S1x2048 o) (iota .tc S1x2048 32 [1] iota_S1x2048_d1_w32)) broadcasts_S1x2048_S1024x2048)) natLt_1_32)) bitsLt_bf16_f32)
    (shapeCast S2048x128 blk shapeCasts_S2048x128_S2048x128 : FVec Ideal S2048x128 .bf16) (constant S1024x128 .f32 0x00000000#32)

theorem gatherTile_apply (o : ℕ) (ho : o + 2048 ≤ 2 ^ 32) (src : Vec Ideal S1024 .i32) (blk : Vec Ideal S2048x128 .bf16)
    (r : Fin 1024) (k : Fin 128) :
    gatherTile (BitVec.ofNat 32 o) src blk (ix2 r k)
      = ∑ q : Fin 2048, if (src (ValueIdx.ix1 r)).toNat = o + q then blk (ix2 q k) else 0 := by
  refine (onehot_matmul _ _ _ r k).trans (Finset.sum_congr rfl fun q _ => ?_)
  refine if_congr ?_ (congrFun (shapeCast_self _ _) _) rfl
  rw [broadcastTo_1b_ab_apply, shapeCast_self,
    broadcastTo_apply _ _ _ (ix2 r (0 : Fin 1)) fun a => by match a with | ⟨0, _⟩ => rfl | ⟨1, _⟩ => rfl,
    shapeCast_apply _ _ _ (ValueIdx.ix1 r) (by rw [Shape.rowMajor_val_one, Shape.rowMajor_val_two]; exact (Nat.mul_one _).symm)]
  show _ = IntOp.addi _ (iota .tc S1x2048 32 [1] iota_S1x2048_d1_w32 _) ↔ _
  rw [iota_single_apply, eq_comm]
  exact ofNat_add_eq_iff o q (by have := q.isLt; omega) _

theorem rows_inb (o : ℕ) (h : o + 2048 ≤ 10240) :
    ∀ a, (![o, 0] : Fin 2 → ℕ) a + S2048x128.size a ≤ S10240x128.size a :=
  Fin.forall_fin_two.mpr ⟨h, Nat.le_refl 128⟩

/-- Rows [o, o + 2048) of an array of 10240 rows. -/
def tileOf {e : EltTy} (M : Memref sig .tc .vmem S10240x128 e) (g : M.view.ty.Contents (Elt Ideal)) (o : ℕ) (ho : o + 2048 ≤ 10240) :
    Vec Ideal S2048x128 e :=
  View.readAt (Elt Ideal) M.view (Rect.unit (s := S10240x128) ![o, 0] S2048x128.size (rows_inb o ho)).toLoadRect g

theorem tileOf_apply {e : EltTy} (M : Memref sig .tc .vmem S10240x128 e) (g : M.view.ty.Contents (Elt Ideal)) (o : ℕ) (ho : o + 2048 ≤ 10240)
    (p : Fin 2048) (k : Fin 128) :
    tileOf M g o ho (ix2 p k) = M.view.read (Elt Ideal) g (ix2 (⟨o + p, by have := p.isLt; omega⟩ : Fin 10240) k) :=
  congrArg (M.view.read (Elt Ideal) g) (funext fun a => Fin.ext (by
    match a with
    | ⟨0, _⟩ => show o + 1 * p.val = o + p.val; omega
    | ⟨1, _⟩ => show 0 + 1 * k.val = k.val; omega))

/-- One node tile's step: under the guard `b` its rows [o, o + 2048) are replaced by their update, otherwise nothing changes. -/
def tileStep (b : Prop) [Decidable b] (o : ℕ) (ho : o + 2048 ≤ 10240) (dst : IVec S1024 32) (rows : FVec Ideal S1024x128 .bf16)
    (g : accM.view.ty.Contents (Elt Ideal)) : accM.view.ty.Contents (Elt Ideal) :=
  if _hc : b then
    accM.view.writes (Elt Ideal) g
      [⟨Rect.unit (s := S10240x128) ![o, 0] S2048x128.size (rows_inb o ho), scatterTile (BitVec.ofNat 32 o) dst rows (tileOf accM g o ho)⟩]
  else g

/-- A tile's write changes only the tile's rows: element (n, k) gains node n's incoming sum exactly when the guard holds and n lies in the tile. -/
theorem read_tileStep (b : Prop) [Decidable b] (o : ℕ) (ho : o + 2048 ≤ 10240) (dst : IVec S1024 32)
    (rows : FVec Ideal S1024x128 .bf16) (g : accM.view.ty.Contents (Elt Ideal)) (t : ℕ) (ht : o = 2048 * t)
    (n : Fin 10240) (k : Fin 128) :
    accM.view.read (Elt Ideal) (tileStep b o ho dst rows g) (ix2 n k)
      = accM.view.read (Elt Ideal) g (ix2 n k) + (if b ∧ n.val / 2048 = t then inSum dst rows n.val k else 0) := by
  have hn := n.isLt
  unfold tileStep
  by_cases hb : b
  · rw [dif_pos hb]
    by_cases h : n.val / 2048 = t
    · rw [if_pos ⟨hb, h⟩]
      refine (View.read_writes_cons_rows_of_mem accM.view g _ _ [] _ (ix2 (⟨n.val - o, by omega⟩ : Fin 2048) k) rfl
        (by show n.val = o + (n.val - o); omega) rfl).trans ?_
      rw [scatterTile_apply o _ _ _ _ k (by simp only; omega), tileOf_apply]
      simp only [show o + (n.val - o) = n.val by omega, Fin.eta]
    · rw [if_neg (fun h' => h h'.2), add_zero]
      exact View.read_writes_cons_rows_of_not_mem accM.view g _ _ [] _ rfl (rfl : S2048x128.size (0 : Fin 2) = 2048)
        (by show n.val < o ∨ o + 2048 ≤ n.val; omega)
  · rw [dif_neg hb, if_neg (fun h => hb h.1), add_zero]

/-- Of five guarded additions of one term, the t-th under "`b t` and m = t", only the m-th can fire. -/
theorem pick_tile (b : Fin 5 → Prop) [∀ t, Decidable (b t)] (m : ℕ) (hm : m < 5) (x y : EReal) :
    x + (if b 0 ∧ m = 0 then y else 0) + (if b 1 ∧ m = 1 then y else 0) + (if b 2 ∧ m = 2 then y else 0)
        + (if b 3 ∧ m = 3 then y else 0) + (if b 4 ∧ m = 4 then y else 0)
      = x + if b ⟨m, hm⟩ then y else 0 := by
  interval_cases m <;> simp

/-- The five tile steps, tile 0 first. -/
def nest (b : Fin 5 → Prop) [∀ t, Decidable (b t)] (dst : IVec S1024 32) (rows : FVec Ideal S1024x128 .bf16)
    (g : accM.view.ty.Contents (Elt Ideal)) : accM.view.ty.Contents (Elt Ideal) :=
  tileStep (b 4) 8192 (by decide) dst rows
    (tileStep (b 3) 6144 (by decide) dst rows
      (tileStep (b 2) 4096 (by decide) dst rows
        (tileStep (b 1) 2048 (by decide) dst rows
          (tileStep (b 0) 0 (by decide) dst rows g))))

/-- A row lies in exactly one tile, so after the five steps element (n, k) has gained node n's incoming sum exactly when its own tile's guard holds. -/
theorem nest_read (b : Fin 5 → Prop) [∀ t, Decidable (b t)] (dst : IVec S1024 32) (rows : FVec Ideal S1024x128 .bf16)
    (g : accM.view.ty.Contents (Elt Ideal)) (n : Fin 10240) (k : Fin 128) :
    accM.view.read (Elt Ideal) (nest b dst rows g) (ix2 n k)
      = accM.view.read (Elt Ideal) g (ix2 n k)
          + (if b ⟨n.val / 2048, by have := n.isLt; omega⟩ then inSum dst rows n.val k else 0) := by
  unfold nest
  rw [read_tileStep _ _ _ _ _ _ 4 rfl, read_tileStep _ _ _ _ _ _ 3 rfl, read_tileStep _ _ _ _ _ _ 2 rfl,
    read_tileStep _ _ _ _ _ _ 1 rfl, read_tileStep _ _ _ _ _ _ 0 rfl]
  exact pick_tile b _ _ _ _

/-- The mask table's word for tile `t` at grid point `i`. -/
def maskWord (c : Dev nD) (i : grid1.Coords) (xt : MaskBuf (F := Ideal) c) (t : Fin 5) : BitVec 32 :=
  match t with
  | ⟨0, _⟩ => View.readAt (Elt Ideal) maskM.view (Rect.unit (s := S636x5) (k1_off1 i) S1x1.size (k1_off1_inb i)).toLoadRect xt
      (Shape.Idx.first (Nat.lt_of_lt_of_eq Nat.one_pos numel1_S1x1.symm))
  | ⟨1, _⟩ => View.readAt (Elt Ideal) maskM.view (Rect.unit (s := S636x5) (k1_off2 i) S1x1.size (k1_off2_inb i)).toLoadRect xt
      (Shape.Idx.first (Nat.lt_of_lt_of_eq Nat.one_pos numel1_S1x1.symm))
  | ⟨2, _⟩ => View.readAt (Elt Ideal) maskM.view (Rect.unit (s := S636x5) (k1_off3 i) S1x1.size (k1_off3_inb i)).toLoadRect xt
      (Shape.Idx.first (Nat.lt_of_lt_of_eq Nat.one_pos numel1_S1x1.symm))
  | ⟨3, _⟩ => View.readAt (Elt Ideal) maskM.view (Rect.unit (s := S636x5) (k1_off4 i) S1x1.size (k1_off4_inb i)).toLoadRect xt
      (Shape.Idx.first (Nat.lt_of_lt_of_eq Nat.one_pos numel1_S1x1.symm))
  | ⟨4, _⟩ => View.readAt (Elt Ideal) maskM.view (Rect.unit (s := S636x5) (k1_off5 i) S1x1.size (k1_off5_inb i)).toLoadRect xt
      (Shape.Idx.first (Nat.lt_of_lt_of_eq Nat.one_pos numel1_S1x1.symm))
  | ⟨_ + 5, h⟩ => absurd h (Nat.not_lt.2 (Nat.le_add_left _ _))

/-- Tile `t`'s guard at point `i`: the test "word ≠ 0", widened to a word and tested against zero once more. -/
def tileSet (c : Dev nD) (i : grid1.Coords) (xt : MaskBuf (F := Ideal) c) (t : Fin 5) : Prop :=
  Scalar.cmpi .ne (Scalar.extui (Scalar.cmpi .ne (maskWord c i xt t) 0#32)) 0#32 = 1#1

instance (c : Dev nD) (i : grid1.Coords) (xt : MaskBuf (F := Ideal) c) (t : Fin 5) : Decidable (tileSet c i xt t) :=
  inferInstanceAs (Decidable (Scalar.cmpi .ne (Scalar.extui (Scalar.cmpi .ne (maskWord c i xt t) 0#32)) 0#32 = 1#1))

/-- The double test says no more than "the word is not zero". -/
theorem tileSet_iff_word (c : Dev nD) (i : grid1.Coords) (xt : MaskBuf (F := Ideal) c) (t : Fin 5) :
    tileSet c i xt t ↔ maskWord c i xt t ≠ 0#32 := by
  unfold tileSet
  generalize maskWord c i xt t = w
  by_cases h : w = 0#32
  · subst h; simp [Scalar.cmpi, Scalar.extui, IntOp.cmpi]
  · simp [Scalar.cmpi, Scalar.extui, IntOp.cmpi, bne_iff_ne.mpr h, h]

/-- Edge `r`'s source node's row of the scaled features at column `k` (the id modulo the row count, which changes nothing for an id in range). -/
def gathered (x3 : Vec Ideal S1024 .i32) (x5 : Vec Ideal S10240x128 .bf16) (r : Fin 1024) (k : Fin 128) : EReal :=
  x5 (ix2 (⟨(x3 (ValueIdx.ix1 r)).toNat % 10240, Nat.mod_lt _ (by decide)⟩ : Fin 10240) k)

abbrev ldIds (arg : Memref sig .tc .vmem S1024 .i32) (harg : arg.IsWhole) (x : Vec Ideal S1024 .i32) : Vec Ideal S1024 .i32 :=
  View.readAt (Elt Ideal) arg.view (Rect.unit (s := S1024) ![0] S1024.size inb_S1024_S1024_0).toLoadRect (harg.unread x)

theorem ids_load (arg : Memref sig .tc .vmem S1024 .i32) (harg : arg.IsWhole) (x : Vec Ideal S1024 .i32) : ldIds arg harg x = x := by
  rw [ldIds, View.readAt_eq_ld, harg.read_unread]
  exact View.ld_unit_zero (S := S1024) (funext fun a => by match a with | ⟨0, _⟩ => rfl) _ x

section
variable {κ : Kind} {sp : Space} (v : View sig κ sp S1x10240x128 .f32) (f : v.ty.Contents (Elt Ideal)) (c : Dev nD) (i : grid1.Coords)
  (arg3 : Memref sig .tc .vmem S1024 .i32) (harg3 : arg3.IsWhole) (arg4 : Memref sig .tc .vmem S1024 .i32) (harg4 : arg4.IsWhole)
  (arg5 : Memref sig .tc .vmem S10240x128 .bf16) (harg5 : arg5.IsWhole)

section
variable (x3 x4 : Vec Ideal S1024 .i32) (x5 : Vec Ideal S10240x128 .bf16) (xt : MaskBuf (F := Ideal) c)

/-- A source id lies in the tile of rows from `o` exactly when it has the tile's quotient by 2048: then one term of the share is the source's row and the rest vanish, else all vanish. -/
theorem tile_share (o : ℕ) (hd : o % 2048 = 0) (ho : o + 2048 ≤ 10240) (r : Fin 1024) (k : Fin 128) :
    gatherTile (BitVec.ofNat 32 o) x3 (tileOf arg5 (harg5.unread x5) o ho) (ix2 r k)
      = if (x3 (ValueIdx.ix1 r)).toNat / 2048 = o / 2048 then gathered x3 x5 r k else 0 := by
  rw [gatherTile_apply o (by omega)]
  by_cases h : (x3 (ValueIdx.ix1 r)).toNat / 2048 = o / 2048
  · rw [if_pos h, Fintype.sum_eq_single (⟨(x3 (ValueIdx.ix1 r)).toNat - o, by omega⟩ : Fin 2048)
      fun q hq => if_neg fun e => hq (Fin.ext (by simp only; omega)),
      if_pos (by simp only; omega), tileOf_apply, harg5.read_unread]
    exact congrArg (fun m : Fin 10240 => x5 (ix2 m k)) (Fin.ext (by simp only; omega))
  · rw [if_neg h]
    exact Finset.sum_eq_zero fun q _ => if_neg (by have := q.isLt; omega)

/-- One grid point, from the accumulator `X`: an id below 10240 lies in exactly one feature tile, so the five shares add up to the source's row, and element (n, k) gains the sum of the source rows of the block's edges that end at node n, if the word of n's tile is set. -/
theorem step_read (hsrc : ∀ r : Fin 1024, (x3 (ValueIdx.ix1 r)).toNat < 10240) (X : Vec Ideal S10240x128 .f32) (n : Fin 10240) (k : Fin 128) :
    accM.view.read (Elt Ideal)
        (nest (tileSet c i xt) (k1_pay8 (ldIds arg4 harg4 x4))
          (k1_pay12 (k1_pay7 (ldIds arg3 harg3 x3))
            (k1_pay9 (ldIds arg3 harg3 x3) (tileOf arg5 (harg5.unread x5) 0 (by decide)) (tileOf arg5 (harg5.unread x5) 2048 (by decide)))
            k1_pay10 (k1_pay11 (ldIds arg3 harg3 x3))
            (tileOf arg5 (harg5.unread x5) 4096 (by decide)) (tileOf arg5 (harg5.unread x5) 6144 (by decide))
            (tileOf arg5 (harg5.unread x5) 8192 (by decide)))
          (haccM.unread X)) (ix2 n k)
      = X (ix2 n k)
          + (if tileSet c i xt ⟨n.val / 2048, by have := n.isLt; omega⟩ then
              ∑ r : Fin 1024, (if (x4 (ValueIdx.ix1 r)).toNat = n.val then gathered x3 x5 r k else 0) else 0) := by
  rw [nest_read, haccM.read_unread]
  refine congrArg (X (ix2 n k) + ·) (if_congr Iff.rfl (Finset.sum_congr rfl fun r _ => ?_) rfl)
  unfold k1_pay8
  rw [shapeCast_self, ids_load, ids_load]
  refine if_congr Iff.rfl ?_ rfl
  show Ideal.ofBits .f32 0x00000000#32 + gatherTile 0#32 x3 _ _ + gatherTile 2048#32 x3 _ _ + gatherTile 4096#32 x3 _ _
    + gatherTile 6144#32 x3 _ _ + gatherTile 8192#32 x3 _ _ = _
  simp only [tile_share, Ideal.ofBits_zero_f32]
  simpa using pick_tile (fun _ => True) ((x3 (ValueIdx.ix1 r)).toNat / 2048) (by have := hsrc r; omega) 0 (gathered x3 x5 r k)

end

/-- The cleared accumulator is zero everywhere. -/
theorem accCleared_apply (n : Fin 10240) (k : Fin 128) : accCleared (F := Ideal) (ix2 n k) = 0 := by
  unfold accCleared
  refine (View.read_writes_cons_unit_of_mem (Val := Elt Ideal) accM.view accM.view.junk _ (k1_pay6 (F := Ideal)) [] _ (ix2 n k) rfl
    (Fin.forall_fin_two.mpr ⟨(Nat.zero_add _).symm, (Nat.zero_add _).symm⟩)).trans ?_
  unfold k1_pay6
  rw [shapeCast_self]
  exact Ideal.ofBits_zero_f32

variable (arg6 : Memref sig .tc .vmem S1x10240x128 .f32) (harg6 : arg6.IsWhole)

theorem step_mid (hf : ¬ isFirst i) (hl : ¬ isLast i)
    (x3 x4 : Vec Ideal S1024 .i32) (x5 : Vec Ideal S10240x128 .bf16) (xs : Vec Ideal S10240x128 .f32) (xt : MaskBuf (F := Ideal) c)
    (hsrc : ∀ r : Fin 1024, (x3 (ValueIdx.ix1 r)).toNat < 10240) (n : Fin 10240) (k : Fin 128) :
    accM.view.read (Elt Ideal) (fusedRunMid c i arg3 harg3 arg4 harg4 arg5 harg5 arg6 harg6 hf hl x3 x4 x5 xs xt).1 (ValueIdx.ix2 n k)
      = xs (ValueIdx.ix2 n k)
          + (if tileSet c i xt ⟨n.val / 2048, by have := n.isLt; omega⟩ then
              ∑ r : Fin 1024, (if (x4 (ValueIdx.ix1 r)).toNat = n.val then gathered x3 x5 r k else 0) else 0) :=
  step_read c i arg3 harg3 arg4 harg4 arg5 harg5 x3 x4 x5 xt hsrc xs n k

theorem step_first (hf : isFirst i) (hl : ¬ isLast i)
    (x3 x4 : Vec Ideal S1024 .i32) (x5 : Vec Ideal S10240x128 .bf16) (xt : MaskBuf (F := Ideal) c)
    (hsrc : ∀ r : Fin 1024, (x3 (ValueIdx.ix1 r)).toNat < 10240) (n : Fin 10240) (k : Fin 128) :
    accM.view.read (Elt Ideal) (fusedRunFirst c i arg3 harg3 arg4 harg4 arg5 harg5 arg6 harg6 hf hl x3 x4 x5 xt).1 (ValueIdx.ix2 n k)
      = 0 + (if tileSet c i xt ⟨n.val / 2048, by have := n.isLt; omega⟩ then
              ∑ r : Fin 1024, (if (x4 (ValueIdx.ix1 r)).toNat = n.val then gathered x3 x5 r k else 0) else 0) :=
  (step_read c i arg3 harg3 arg4 harg4 arg5 harg5 x3 x4 x5 xt hsrc accCleared n k).trans
    (congrArg (· + _) (accCleared_apply n k))

section
variable (hf : ¬ isFirst i) (hl : isLast i)
  (x3 x4 : Vec Ideal S1024 .i32) (x5 : Vec Ideal S10240x128 .bf16) (xs : Vec Ideal S10240x128 .f32) (xt : MaskBuf (F := Ideal) c)
  (hsrc : ∀ r : Fin 1024, (x3 (ValueIdx.ix1 r)).toNat < 10240) (n : Fin 10240) (k : Fin 128)
include hsrc

theorem step_last :
    accM.view.read (Elt Ideal) (fusedRunLast c i arg3 harg3 arg4 harg4 arg5 harg5 arg6 harg6 hf hl x3 x4 x5 xs xt).2.1 (ValueIdx.ix2 n k)
      = xs (ValueIdx.ix2 n k)
          + (if tileSet c i xt ⟨n.val / 2048, by have := n.isLt; omega⟩ then
              ∑ r : Fin 1024, (if (x4 (ValueIdx.ix1 r)).toNat = n.val then gathered x3 x5 r k else 0) else 0) :=
  step_read c i arg3 harg3 arg4 harg4 arg5 harg5 x3 x4 x5 xt hsrc xs n k

/-- The last step's output block is the accumulator it leaves, under a leading axis of extent one. -/
theorem step_last_out :
    v.read (Elt Ideal) (v.writes (Elt Ideal) f (fusedRunLast c i arg3 harg3 arg4 harg4 arg5 harg5 arg6 harg6 hf hl x3 x4 x5 xs xt).1)
        (ValueIdx.ix3 (0 : Fin 1) n k)
      = xs (ValueIdx.ix2 n k)
          + (if tileSet c i xt ⟨n.val / 2048, by have := n.isLt; omega⟩ then
              ∑ r : Fin 1024, (if (x4 (ValueIdx.ix1 r)).toNat = n.val then gathered x3 x5 r k else 0) else 0) := by
  unfold fusedRunLast; dsimp only; sl_unfold_words
  refine (View.read_writes_cons_unit_of_mem (Val := Elt Ideal) v f _ _ [] _ (ix3 (0 : Fin 1) n k) rfl fun a => by
    match a with
    | ⟨0, _⟩ => exact (Nat.zero_add _).symm
    | ⟨1, _⟩ => exact (Nat.zero_add _).symm
    | ⟨2, _⟩ => exact (Nat.zero_add _).symm).trans ?_
  unfold k1_pay5
  rw [shapeCast_ab_1ab_apply, View.readAt_eq_ld,
    View.ld_unit_zero (S := S10240x128) (funext fun a => by match a with | ⟨0, _⟩ => rfl | ⟨1, _⟩ => rfl)]
  exact step_read c i arg3 harg3 arg4 harg4 arg5 harg5 x3 x4 x5 xt hsrc xs n k

end

end

end Cert.KernelIdeal.Hand
end
-- ==== Proof.MaskCell.lean ====
import proofs.«419665_j81406810129006_3_alg».proof.Proof.FusedBody
import Idealize.ShloMosaic.Lib.ValueIdx

noncomputable section

namespace Cert.KernelIdeal.Hand

open Cert.KernelIdeal Idealize.ShloMosaic Idealize.ShloMosaic.TcCoe Idealize.SL.Sem

/-- A load of the one-element rectangle at offsets (e, n) of the 636 × 5 table reads its entry (e, n). -/
theorem read_cell {F : FTy → Type} [FloatOps F] (c : Dev nD) (xt : MaskBuf (F := F) c) (off : Fin 2 → Nat)
    (inb : ∀ a, off a + S1x1.size a ≤ S636x5.size a) (h) (e : Fin 636) (n : Fin 5) (h0 : off 0 = e.val) (h1 : off 1 = n.val) :
    View.readAt (Elt F) maskM.view (Rect.unit (s := S636x5) off S1x1.size inb).toLoadRect xt (Shape.Idx.first h)
      = (xt : S636x5.Idx → BitVec 32) (ValueIdx.ix2 e n) := by
  rw [View.readAt_apply]
  exact congrArg (xt : S636x5.Idx → BitVec 32) (funext fun a => Fin.ext (match a with | ⟨0, _⟩ => h0 | ⟨1, _⟩ => h1))

end Cert.KernelIdeal.Hand

end
-- ==== Proof.StepsSum.lean ====
import Mathlib.Data.EReal.Basic
import Mathlib.Algebra.BigOperators.Fin
import Mathlib.Data.Fintype.BigOperators
import Mathlib.Logic.Equiv.Fin.Basic

noncomputable section

namespace Cert.Spec

theorem sum_steps_slots (f : Fin 325632 → EReal) :
    (∑ e : Fin 318, ∑ r : Fin 1024, f ⟨1024 * e.val + r.val, by omega⟩) = ∑ p : Fin 325632, f p := by
  rw [← Equiv.sum_comp (finProdFinEquiv (m := 318) (n := 1024)) f, Fintype.sum_prod_type]
  exact Finset.sum_congr rfl fun e _ => Finset.sum_congr rfl fun r _ => congrArg f (Fin.ext (Nat.add_comm _ _))

theorem guard_immaterial (T : Fin 318 → Fin 5 → Prop) [∀ e t, Decidable (T e t)] (d : Fin 325632 → ℕ)
    (g : Fin 325632 → EReal) (n : Fin 10240)
    (hsound : ∀ (e : Fin 318) (r : Fin 1024),
      d ⟨1024 * e.val + r.val, by have := e.isLt; have := r.isLt; omega⟩ = n.val →
        T e ⟨n.val / 2048, by have := n.isLt; omega⟩) :
    (∑ e : Fin 318, if T e ⟨n.val / 2048, by have := n.isLt; omega⟩ then
        ∑ r : Fin 1024, (if d ⟨1024 * e.val + r.val, by have := e.isLt; have := r.isLt; omega⟩ = n.val then
          g ⟨1024 * e.val + r.val, by have := e.isLt; have := r.isLt; omega⟩ else 0) else 0)
      = ∑ p : Fin 325632, if d p = n.val then g p else 0 := by
  rw [← sum_steps_slots fun p => if d p = n.val then g p else 0]
  refine Finset.sum_congr rfl fun e _ => ?_
  by_cases hT : T e ⟨n.val / 2048, by omega⟩
  · rw [if_pos hT]
  · rw [if_neg hT]
    exact (Finset.sum_eq_zero fun r _ => if_neg fun hd => hT (hsound e r hd)).symm

theorem fold_steps (A : ℕ → EReal) (cst : ℕ → EReal) (h0 : A 0 = 0 + cst 0)
    (hs : ∀ e, e + 1 < 318 → A (e + 1) = A e + cst (e + 1)) : A 317 = ∑ e : Fin 318, cst e.val := by
  have hgen : ∀ e, e < 318 → A e = ∑ i : Fin (e + 1), cst i.val := fun e => by
    induction e with
    | zero => exact fun _ => by rw [h0, zero_add, Fin.sum_univ_one]; rfl
    | succ e ih => exact fun he => (hs e he).trans ((congrArg (· + cst (e + 1)) (ih (by omega))).trans
        (Fin.sum_univ_castSucc fun i : Fin (e + 1 + 1) => cst i.val).symm)
  exact hgen 317 (by norm_num)

end Cert.Spec

end
-- ==== Proof.FusedEntry.lean ====
import proofs.«419665_j81406810129006_3_alg».proof.Proof.FusedValue
import proofs.«419665_j81406810129006_3_alg».proof.Proof.FusedStep
import proofs.«419665_j81406810129006_3_alg».proof.Proof.MaskCell
import proofs.«419665_j81406810129006_3_alg».proof.Proof.StepsSum
import Idealize.ShloMosaic.Lib.Pipeline.Value

noncomputable section

namespace Cert.KernelIdeal.Hand

open Cert.KernelIdeal Cert.KernelIdeal.Gen
open Idealize.ShloMosaic Idealize.ShloMosaic.TcCoe
open Idealize.SL.Sem

/-- One core's sum at node n, feature k: over the core's half of the positions, the scaled feature row of the position's source where its destination is n. -/
def gatherSum (dW sW : S651264.Idx → BitVec 32) (hs : S10240x128.Idx → EReal) (co : Fin 2) (n : ℕ) (k : Fin 128) : EReal :=
  ∑ p : Fin 325632,
    if (dW (ValueIdx.ix1 (⟨co.val * 325632 + p.val, by have := co.isLt; have := p.isLt; omega⟩ : Fin 651264))).toNat = n then
      hs (ValueIdx.ix2 (⟨(sW (ValueIdx.ix1 (⟨co.val * 325632 + p.val, by have := co.isLt; have := p.isLt; omega⟩ : Fin 651264))).toNat % 10240,
        Nat.mod_lt _ (by decide)⟩ : Fin 10240) k)
    else 0

/-- Position p of core co's half, among all 651264 positions. -/
def posOf (co : Fin 2) (p : Fin 325632) : Fin 651264 := ⟨co.val * 325632 + p.val, by omega⟩

variable (V : (c : Dev nD) → (b : Ref sig .tc) → Buf (Elt Ideal) ((c : Thread nD τ).loc b))

/-- What point t adds to the running total at node n, feature k. -/
def gain (c : Dev nD) (t : Fin (cfgF V).N) (n : Fin 10240) (k : Fin 128) : EReal :=
  if tileSet c (grid1.coords t) (tblAt V c) ⟨n.val / 2048, by omega⟩ then
    ∑ r : Fin 1024, if ((inBlock V c 1 t : Vec Ideal S1024 .i32) (ValueIdx.ix1 r)).toNat = n.val then
      gathered (inBlock V c 0 t) (inBlock V c 2 t) r k else 0
  else 0

/-- The running total at node n, feature k after point t. -/
def accVal (c : Dev nD) (t : Fin (cfgF V).N) (n : Fin 10240) (k : Fin 128) : EReal :=
  (accM.view.read (Elt Ideal) (accAt V c t.val t.isLt) : Vec Ideal S10240x128 .f32) (ValueIdx.ix2 n k)

/-- At point t the flag of tile j is up exactly when the table's word at row t, column j is not zero. -/
theorem tileSet_at (c : Dev nD) (t : Fin grid1.N) (xt : MaskBuf (F := Ideal) c) (j : Fin 5) :
    tileSet c (grid1.coords t) xt j ↔ (xt : S636x5.Idx → BitVec 32) (ValueIdx.ix2 (t.cast N_1) j) ≠ 0#32 := by
  rw [tileSet_iff_word]
  refine not_congr (Eq.congr_left ?_)
  match j with
  | ⟨0, _⟩ | ⟨1, _⟩ | ⟨2, _⟩ | ⟨3, _⟩ | ⟨4, _⟩ => exact read_cell c xt _ _ _ _ _ (point_words t).1 rfl

section
variable (c : Dev nD) (hsrc : ∀ p : Fin 651264, ((V c main_v28 : S651264.Idx → BitVec 32) (ValueIdx.ix1 p)).toNat < 10240)
include hsrc

theorem src_in_range (t : Fin (cfgF V).N) (r : Fin 1024) : ((inBlock V c 0 t : Vec Ideal S1024 .i32) (ValueIdx.ix1 r)).toNat < 10240 := by
  rw [(ids_slot V c t r ⟨1024 * t.val + r.val, by have : (cfgF V).N = 636 := N_1; omega⟩ rfl).1]
  exact hsrc _

/-- A core's first step opens the total at its gain; every later step adds its gain to what the step before left. -/
theorem acc_step (t t' : Fin (cfgF V).N) (ht : t.val % 318 = 0 ∨ t'.val = t.val - 1) (n : Fin 10240) (k : Fin 128) :
    accVal V c t n k = (if t.val % 318 = 0 then 0 else accVal V c t' n k) + gain V c t n k := by
  unfold accVal
  by_cases h0 : t.val % 318 = 0
  · rw [if_pos h0, accAt_first V c t h0]
    exact step_first c _ _ _ _ _ _ _ _ _ _ _ _ _ _ _ (src_in_range V c hsrc t) n k
  · obtain ⟨m, hm⟩ := t'
    obtain rfl : m = t.val - 1 := ht.resolve_left h0
    rw [if_neg h0]
    by_cases h1 : t.val % 318 = 317
    · rw [accAt_last V c t h0 h1]
      exact step_last c _ _ _ _ _ _ _ _ _ _ _ _ _ _ _ _ (src_in_range V c hsrc t) n k
    · rw [accAt_mid V c t h0 h1]
      exact step_mid c _ _ _ _ _ _ _ _ _ _ _ _ _ _ _ _ (src_in_range V c hsrc t) n k

/-- At a core's last step the output slab's entry (0, n, k) is the total the step leaves. -/
theorem out_eq_acc (t : Fin (cfgF V).N) (h1 : t.val % 318 = 317) (n : Fin 10240) (k : Fin 128) :
    ((fusedDat V c).after 3 t : Vec Ideal S1x10240x128 .f32) (ValueIdx.ix3 (0 : Fin 1) n k) = accVal V c t n k := by
  have h0 : ¬ t.val % 318 = 0 := by omega
  unfold accVal
  rw [after_out_last V c t h0 h1, accAt_last V c t h0 h1]
  exact (step_last_out outView outView.junk c _ _ _ _ _ _ _ _ _ _ _ _ _ _ _ _ (src_in_range V c hsrc t) n k).trans
    (step_last c _ _ _ _ _ _ _ _ _ _ _ _ _ _ _ _ (src_in_range V c hsrc t) n k).symm

/-- After a core's last step the total is the sum of its 318 steps' gains. -/
theorem core_total (co : Fin 2) (n : Fin 10240) (k : Fin 128) :
    accVal V c (pt V co 317) n k = ∑ e : Fin 318, gain V c (pt V co e.val) n k := by
  refine Cert.Spec.fold_steps (fun e => accVal V c (pt V co e) n k) (fun e => gain V c (pt V co e) n k) ?_ fun e he => ?_
  · have h0 : (pt V co 0).val % 318 = 0 := by show (318 * co.val + 0 % 318) % 318 = 0; omega
    exact (acc_step V c hsrc _ (pt V co 0) (Or.inl h0) n k).trans (by rw [if_pos h0])
  · have h0 : ¬ (pt V co (e + 1)).val % 318 = 0 := by show ¬ (318 * co.val + (e + 1) % 318) % 318 = 0; omega
    exact (acc_step V c hsrc _ (pt V co e) (Or.inr (by show 318 * co.val + e % 318 = 318 * co.val + (e + 1) % 318 - 1; omega)) n k).trans
      (by rw [if_neg h0])

end

/-- The gains of a core's steps add up to the sum over its positions: step e's slots are positions 1024·e … 1024·e + 1023, and a lowered flag hides no position ending in n. -/
theorem gain_sum (c : Dev nD)
    (hsound : ∀ (t : Fin 636) (tile : Fin 5) (r : Fin 1024),
      2048 * tile.val ≤ ((V c main_v35 : S651264.Idx → BitVec 32) (ValueIdx.ix1 (⟨1024 * t.val + r.val, by omega⟩ : Fin 651264))).toNat
        ∧ ((V c main_v35 : S651264.Idx → BitVec 32) (ValueIdx.ix1 (⟨1024 * t.val + r.val, by omega⟩ : Fin 651264))).toNat < 2048 * tile.val + 2048
      → (tblAt V c : S636x5.Idx → BitVec 32) (ValueIdx.ix2 t tile) ≠ 0#32)
    (co : Fin 2) (n : Fin 10240) (k : Fin 128) :
    ∑ e : Fin 318, gain V c (pt V co e.val) n k = gatherSum (V c main_v35) (V c main_v28) (V c main_v39) co n.val k := by
  have hpos : ∀ (e : Fin 318) (r : Fin 1024) h, (posOf co ⟨1024 * e.val + r.val, h⟩).val = 1024 * (pt V co e.val).val + r.val :=
    fun e r h => by show co.val * 325632 + (1024 * e.val + r.val) = 1024 * (318 * co.val + e.val % 318) + r.val; omega
  refine Eq.trans ?_ (Cert.Spec.guard_immaterial (fun e j => tileSet c (grid1.coords (pt V co e.val)) (tblAt V c) j)
    (fun p => ((V c main_v35 : S651264.Idx → BitVec 32) (ValueIdx.ix1 (posOf co p))).toNat)
    (fun p => (V c main_v39 : S10240x128.Idx → EReal) (ValueIdx.ix2 (⟨((V c main_v28 : S651264.Idx → BitVec 32) (ValueIdx.ix1 (posOf co p))).toNat % 10240,
      Nat.mod_lt _ (by decide)⟩ : Fin 10240) k)) n fun e r hd => ?_)
  · refine Finset.sum_congr rfl fun e _ => if_congr Iff.rfl (Finset.sum_congr rfl fun r _ => ?_) rfl
    obtain ⟨hs, hd⟩ := ids_slot V c (pt V co e.val) r _ (hpos e r _)
    exact if_congr (by rw [hd]) ((feat_rows V c _ _).trans (congrArg (fun j : Fin 10240 => (V c main_v39 : S10240x128.Idx → EReal) (ValueIdx.ix2 j k))
      (Fin.ext (congrArg (fun w : BitVec 32 => w.toNat % 10240) hs)))) rfl
  · rw [tileSet_at]
    refine hsound ((pt V co e.val).cast N_1) _ r ?_
    rw [show (⟨1024 * ((pt V co e.val).cast N_1).val + r.val, _⟩ : Fin 651264) = posOf co ⟨1024 * e.val + r.val, by omega⟩ from Fin.ext (hpos e r _).symm, hd]
    show 2048 * (n.val / 2048) ≤ n.val ∧ n.val < 2048 * (n.val / 2048) + 2048
    omega

attribute [local irreducible] gatherSum in
theorem fused_entry (c : Dev nD)
    (hsrc : ∀ p : Fin 651264, ((V c main_v28 : S651264.Idx → BitVec 32) (ValueIdx.ix1 p)).toNat < 10240)
    (hsound : ∀ (t : Fin 636) (tile : Fin 5) (r : Fin 1024),
      2048 * tile.val ≤ ((V c main_v35 : S651264.Idx → BitVec 32) (ValueIdx.ix1 (⟨1024 * t.val + r.val, by omega⟩ : Fin 651264))).toNat
        ∧ ((V c main_v35 : S651264.Idx → BitVec 32) (ValueIdx.ix1 (⟨1024 * t.val + r.val, by omega⟩ : Fin 651264))).toNat < 2048 * tile.val + 2048
      → (tblAt V c : S636x5.Idx → BitVec 32) (ValueIdx.ix2 t tile) ≠ 0#32)
    (co : Fin 2) (n : Fin 10240) (k : Fin 128) :
    ((fusedDat V c).arrAt 3 (cfgF V).N : S2x10240x128.Idx → EReal) (ValueIdx.ix3 co n k)
      = gatherSum (V c main_v35) (V c main_v28) (V c main_v39) co n.val k := by
  have h317 : ∀ co : Fin 2, (pt V co 317).val % 318 = 317 := fun co => by show (318 * co.val + 317 % 318) % 318 = 317; omega
  let G : S2x10240x128.Idx → EReal := fun i => gatherSum (V c main_v35) (V c main_v28) (V c main_v39) (i 0) (i 1).val (i 2)
  have hG : ∀ t, ((cfgF V).win 3).flush t = true → (fusedDat V c).flushed 3 t = (((cfgF V).win 3).blk t).view.read (Elt Ideal) G := by
    intro t hf
    refine funext fun (y : S1x10240x128.Idx) => ?_
    obtain ⟨z, n, k, rfl⟩ : ∃ (z : Fin 1) (n : Fin 10240) (k : Fin 128), y = ValueIdx.ix3 z n k := ⟨y 0, y 1, y 2, ValueIdx.eq_ix3 y⟩
    obtain rfl : z = 0 := Subsingleton.elim _ _
    show _ = G ((((cfgF V).win 3).blk t).view.emb (ValueIdx.ix3 (0 : Fin 1) n k))
    have ht : t.val < 636 := lt_of_lt_of_eq t.isLt N_1
    have h1 : t.val % 318 = 317 := by
      by_contra h
      exact Bool.false_ne_true ((out_noFlush V t h).symm.trans hf)
    obtain ⟨co, rfl⟩ : ∃ co : Fin 2, t = pt V co 317 :=
      ⟨⟨t.val / 318, by omega⟩, Fin.ext (by show t.val = 318 * (t.val / 318) + 317 % 318; omega)⟩
    rw [out_slab_entry V co n k]
    exact (out_eq_acc V c hsrc _ (h317 co) n k).trans ((core_total V c hsrc co n k).trans (gain_sum V c hsound co n k))
  exact (fusedDat V c).arrAt_apply_of_mem 3 G hG _ (pt V co 317) _ (pt V co 317).isLt (out_flush V _ (h317 co))
    (by rw [← out_slab_entry V co n k]; exact View.emb_mem_set _ _)

end Cert.KernelIdeal.Hand

end
-- ==== Proof.Bridge.lean ====
import proofs.«419665_j81406810129006_3_alg».proof.Proof.KernelRun

noncomputable section

namespace Cert.KernelIdeal.Hand.Bridge

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

variable (m : (ℓ : Loc nD τ sig) → Buf (Elt F) ℓ)

theorem fusedIn_of (c : Dev nD) (r : Ref sig .tc) (h1 : r ∉ hostOps1_W) (h0 : r ∉ ([main_v39] : List (Ref sig .tc))) :
    fusedIn m c r = V9 m c r :=
  (V11_kOuts_apply m c r).symm.trans ((V11_of m (kOuts m) c r h1).trans (V10_of m (kOuts m) c r h0))

theorem fusedIn_src (c : Dev nD) : fusedIn m c main_v28 = V9 m c main_v28 := fusedIn_of m c main_v28 (by decide) (by decide)

theorem fusedIn_dst (c : Dev nD) : fusedIn m c main_v35 = V9 m c main_v35 := fusedIn_of m c main_v35 (by decide) (by decide)

theorem fusedIn_hs (c : Dev nD) : fusedIn m c main_v39 = hsOut m c :=
  (V11_kOuts_apply m c main_v39).symm.trans <| (V11_of m (kOuts m) c main_v39 (by decide)).trans <|
    (congrFun (V10_kOuts m c) (Proc.devRef .tc main_v39)).trans (Function.update_self ..)

theorem maskTbl_fusedIn (c : Dev nD) : tblAt (fusedIn m) c = V11 m (kOuts m) c main_v61 := by
  obtain rfl : c = 0 := Subsingleton.elim _ _
  exact (V11_kOuts_apply m 0 main_v61).symm

theorem V9_unwritten (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W)
    (h8 : r ∉ hostOps0_8_W) : V9 m c r = m ((c : Thread nD τ).loc r) :=
  (V9_of m c r h8).trans <| (V8_of m c r h7).trans <| (V7_of m c r h6).trans <| (V6_of m c r h5).trans <|
    (V5_of m c r h4).trans <| (V4_of m c r h3).trans <| (V3_of m c r h2).trans <| (V2_of m c r h1).trans (V1_of m c r h0)

theorem V9_weights (c : Dev nD) : V9 m c main_arg3 = m ((c : Thread nD τ).loc main_arg3) :=
  V9_unwritten m c main_arg3 (by decide) (by decide) (by decide) (by decide) (by decide) (by decide) (by decide) (by decide) (by decide)

end Cert.KernelIdeal.Hand.Bridge

end
-- ==== Proof.HostSorted.lean ====
import proofs.«419665_j81406810129006_3_alg».proof.Proof.Gen.KernelIdeal.Regions
import proofs.«419665_j81406810129006_3_alg».proof.Proof.Spec
import Idealize.ShloMosaic.Lib.SortFacts
import Idealize.ShloMosaic.Lib.StableHlo.Predicate
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

private theorem ofFin_eq_ix1 {n : Nat} (k : Fin n) : Shape.Idx.ofFin k = ValueIdx.ix1 k := by
  funext a
  obtain rfl : a = 0 := Subsingleton.elim _ _
  exact Fin.ext rfl

/-- A row of `n₁` entries followed by a row of `n₂`, read at `q`. -/
private theorem cat_apply {α : Type} {n₁ n₂ n : Nat} (hn : n ≤ n₁ + n₂) (x₁ : (⟨1, ![n₁]⟩ : Shape).Idx → α)
    (x₂ : (⟨1, ![n₂]⟩ : Shape).Idx → α) (h : Shape.Concatenates [⟨1, ![n₁]⟩, ⟨1, ![n₂]⟩] ⟨1, ![n]⟩ 0) (q : Fin n) :
    concatenate ⟨1, ![n]⟩ 0 [⟨_, x₁⟩, ⟨_, x₂⟩] h (ValueIdx.ix1 q)
      = if hq : q.val < n₁ then x₁ (ValueIdx.ix1 ⟨q.val, hq⟩) else x₂ (ValueIdx.ix1 ⟨q.val - n₁, by have := q.isLt; omega⟩) := by
  split
  · exact concatenate_pair_apply_left (t := ⟨1, ![n]⟩) (s₁ := ⟨1, ![n₁]⟩) (s₂ := ⟨1, ![n₂]⟩) 0 _ _ _ _ rfl _
      fun b => by obtain rfl : b = 0 := Subsingleton.elim _ _; rfl
  · exact concatenate_pair_apply_right (t := ⟨1, ![n]⟩) (s₁ := ⟨1, ![n₁]⟩) (s₂ := ⟨1, ![n₂]⟩) 0 _ _ _ _ rfl rfl _
      (fun b hb => absurd (Subsingleton.elim _ _) hb)
      (by show q.val - n₁ + n₁ = q.val; omega)

/-- Row `r` of the edge list, then the node numbers, then 1264 copies of the id 10000, read at `q`. -/
private theorem idRow_apply (ei : Cert.Spec.Sei.Idx → BitVec 32) (r : Fin 2) (hs : S2x640000.Slices ![r.val, 0] S1x640000)
    (q : Fin 651264) :
    concatenate S651264 0
        [⟨S650000, concatenate S650000 0
            [⟨S640000, shapeCast S640000 (extractStridedSlice S1x640000 ![r.val, 0] ei hs) shapeCasts_S1x640000_S640000⟩,
              ⟨S10000, iotaInDim S10000 32 0⟩] concatenates_S640000_S10000_S650000_d0⟩,
          ⟨S1264, broadcastInDim S1264 ![] bcast_S_S1264 (constantI S_ 32 10000#32)⟩]
        concatenates_S650000_S1264_S651264_d0 (ValueIdx.ix1 q)
      = BitVec.ofNat 32 (if h : q.val < 650000 then
          if h' : q.val < 640000 then (ei (ValueIdx.ix2 r ⟨q.val, h'⟩)).toNat else q.val - 640000 else 10000) := by
  rw [cat_apply (by omega)]
  by_cases h : q.val < 650000
  · rw [dif_pos h, dif_pos h, cat_apply (by omega)]
    by_cases h' : q.val < 640000
    · rw [dif_pos h', dif_pos h', BitVec.ofNat_toNat, BitVec.setWidth_eq,
        shapeCast_apply _ _ _ (ValueIdx.ix2 (0 : Fin 1) (⟨q.val, h'⟩ : Fin 640000))
          (by rw [Shape.rowMajor_val_two, Shape.rowMajor_val_one]; simp),
        extractStridedSlice_apply _ _ _ _ (ValueIdx.ix2 r (⟨q.val, h'⟩ : Fin 640000)) (fun a => by fin_cases a <;> simp)]
    · rw [dif_neg h', dif_neg h']; rfl
  · rw [dif_neg h, dif_neg h, broadcastInDim_scalar_apply]; rfl

/-- A row read through a column of positions that are not negative (a negative one would be counted from the end). -/
private theorem take_positions (x ord : S651264.Idx → BitVec 32) (σ : Fin 651264 → Fin 651264)
    (hord : ∀ p, ord (ValueIdx.ix1 p) = BitVec.ofNat 32 (σ p).val) (p : Fin 651264) :
    Host.gather gather_S651264_S651264x1_S651264_n_0_n_n_0_1_1 x
      (broadcastInDim S651264x1 ![0] bcast_S651264_S651264x1_0
        (select (cmpi .slt ord (broadcastInDim S651264 ![] bcast_S_S651264 (constantI S_ 32 0#32)))
          (addi ord (broadcastInDim S651264 ![] bcast_S_S651264 (constantI S_ 32 651264#32))) ord)) (ValueIdx.ix1 p)
      = x (ValueIdx.ix1 (σ p)) := by
  have hs := (σ p).isLt
  have hneg : IntOp.cmpi .slt (BitVec.ofNat 32 (σ p).val) 0#32 = 0#1 :=
    eq_zero_of_ne_one fun h => absurd ((Predicate.slt_ofNat_iff _ 0 (by omega) (by omega)).mp h) (Nat.not_lt_zero _)
  have hc : ∀ v : IVec S651264 32, broadcastInDim S651264x1 ![0] bcast_S651264_S651264x1_0 v (Predicate.ixP p) = v (ValueIdx.ix1 p) :=
    fun v => (Predicate.bcast_col1 _ v p).trans (congrArg v (ofFin_eq_ix1 p))
  have hz : ∀ w : BitVec 32, broadcastInDim S651264 ![] bcast_S_S651264 (constantI S_ 32 w) (ValueIdx.ix1 p) = w := fun _ => rfl
  rw [← ofFin_eq_ix1, Predicate.gather_take _ rfl rfl rfl rfl _ _ _ (by omega), ofFin_eq_ix1]
  refine congrArg x (congrArg ValueIdx.ix1 (Fin.ext ?_))
  simp only [hc, hz, select, cmpi, addi, hord, hneg, select_zero,
    Predicate.toInt_ofNat_small _ (show (σ p).val < 2 ^ 31 by omega)]
  omega

/-- Both id rows after the order is computed and they are read through it, over any earlier contents `W`. -/
private theorem sorted_of (W : Valuation τ sig (Elt Ideal)) (σ : Fin 651264 → Fin 651264)
    (hσ : σ = sortedFrom fun k k' =>
      comparator_i32_i32_d0 ((W (Proc.devRef .tc main_v20) : S651264.Idx → BitVec 32) (Shape.Idx.ofFin k), BitVec.ofNat 32 k.val)
        ((W (Proc.devRef .tc main_v20) : S651264.Idx → BitVec 32) (Shape.Idx.ofFin k'), BitVec.ofNat 32 k'.val) == 1#1)
    (p : Fin 651264) :
    (StableHlo.after hostOps0_8 (StableHlo.after hostOps0_7 (StableHlo.after hostOps0_6 (StableHlo.after hostOps0_5
        (StableHlo.after hostOps0_4 (StableHlo.after hostOps0_3 W))))) (Proc.devRef .tc main_v28) : S651264.Idx → BitVec 32) (ValueIdx.ix1 p)
      = (W (Proc.devRef .tc main_v18) : S651264.Idx → BitVec 32) (ValueIdx.ix1 (σ p))
    ∧ (StableHlo.after hostOps0_8 (StableHlo.after hostOps0_7 (StableHlo.after hostOps0_6 (StableHlo.after hostOps0_5
        (StableHlo.after hostOps0_4 (StableHlo.after hostOps0_3 W))))) (Proc.devRef .tc main_v35) : S651264.Idx → BitVec 32) (ValueIdx.ix1 p)
      = (W (Proc.devRef .tc main_v20) : S651264.Idx → BitVec 32) (ValueIdx.ix1 (σ p)) := by
  subst hσ
  constructor <;>
  · after_results_simp
    exact take_positions _ _ _ (fun p => by simp [Host.sort2, iotaInDim]) p

section Buffers
variable (c : Dev nD)

set_option quotPrecheck false in
local notation "ei₀" => (m ((c : Thread nD τ).loc main_arg1) : Cert.Spec.Sei.Idx → BitVec 32)

theorem srcPadded_apply (q : Fin 651264) :
    (V3 m c main_v18 : S651264.Idx → BitVec 32) (ValueIdx.ix1 q) = BitVec.ofNat 32 (Cert.Spec.srcPad ei₀ q) := by
  after_results
  exact idRow_apply ei₀ 0 _ q

theorem dstPadded_apply (q : Fin 651264) :
    (V3 m c main_v20 : S651264.Idx → BitVec 32) (ValueIdx.ix1 q) = BitVec.ofNat 32 (Cert.Spec.dstPad ei₀ q) := by
  after_results
  exact idRow_apply ei₀ 1 _ q

/-- The stable order of the lengthened destination ids: sorted position ↦ the position its id came from. -/
def sortPerm : Fin 651264 → Fin 651264 :=
  sortedFrom fun k k' =>
    comparator_i32_i32_d0 ((V3 m c main_v20 : S651264.Idx → BitVec 32) (Shape.Idx.ofFin k), BitVec.ofNat 32 k.val)
      ((V3 m c main_v20 : S651264.Idx → BitVec 32) (Shape.Idx.ofFin k'), BitVec.ofNat 32 k'.val) == 1#1

theorem sortPerm_bijective : Function.Bijective (sortPerm m c) :=
  ⟨sortedFrom_injective _, sortedFrom_surjective _⟩

theorem srcSorted_apply (hR : Cert.Spec.InRange ei₀) (p : Fin 651264) :
    (V9 m c main_v28 : S651264.Idx → BitVec 32) (ValueIdx.ix1 p)
      = BitVec.ofNat 32 (Cert.Spec.srcPad ei₀ (sortPerm m c p)) :=
  (sorted_of (V3 m c) (sortPerm m c) rfl p).1.trans (srcPadded_apply m c _)

theorem dstSorted_apply (hR : Cert.Spec.InRange ei₀) (p : Fin 651264) :
    (V9 m c main_v35 : S651264.Idx → BitVec 32) (ValueIdx.ix1 p)
      = BitVec.ofNat 32 (Cert.Spec.dstPad ei₀ (sortPerm m c p)) :=
  (sorted_of (V3 m c) (sortPerm m c) rfl p).2.trans (dstPadded_apply m c _)

end Buffers

attribute [irreducible] sortPerm

end Cert.KernelIdeal.Hand

end
-- ==== Proof.HostMask.lean ====
import proofs.«419665_j81406810129006_3_alg».proof.Proof.Gen.KernelIdeal.Regions
import Idealize.ShloMosaic.Lib.StableHlo.Predicate
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Idealize.ShloMosaic.StableHlo.Predicate

variable (m : (ℓ : Loc nD τ sig) → Buf (Elt Ideal) ℓ)

/-- If `z` bounds `op x y` exactly when it bounds `x` and `y`, it bounds a fold of `op` exactly when it bounds the start and every member. -/
theorem fold_bound {ι α : Type} {op : BitVec 32 → BitVec 32 → BitVec 32} [Std.Commutative op] [Std.Associative op]
    (r : α → BitVec 32 → Prop) (hop : ∀ z x y, r z (op x y) ↔ r z x ∧ r z y) (S : Finset ι) (b : BitVec 32)
    (f : ι → BitVec 32) (z : α) : r z (S.fold op b f) ↔ r z b ∧ ∀ a ∈ S, r z (f a) := by
  induction S using Finset.cons_induction with
  | empty => simp
  | cons x S hx ih => rw [Finset.fold_cons, hop, ih, Finset.forall_mem_cons]; exact and_left_comm

/-- The signed minimum is the greatest lower bound of its operands, the signed maximum their least upper bound. -/
theorem le_minsi (z : ℤ) (x y : BitVec 32) : z ≤ (IntOp.minsi x y).toInt ↔ z ≤ x.toInt ∧ z ≤ y.toInt := by
  unfold IntOp.minsi BitVec.slt; split <;> rename_i h <;> simp only [decide_eq_true_eq] at h <;> omega

theorem maxsi_le (z : ℤ) (x y : BitVec 32) : (IntOp.maxsi x y).toInt ≤ z ↔ x.toInt ≤ z ∧ y.toInt ≤ z := by
  unfold IntOp.maxsi BitVec.slt; split <;> rename_i h <;> simp only [decide_eq_true_eq] at h <;> omega

/-- For words in [0, 10000] signed order is the order of the values and max + 1 does not wrap, so min ≤ v ≤ max with v in tile t makes both comparisons true. -/
theorem flag_ne_zero (t : Fin 5) (mn mx v : BitVec 32) (h0 : 0 ≤ mn.toInt) (h1 : mn.toInt ≤ v.toInt) (h2 : v.toInt ≤ mx.toInt)
    (h3 : mx.toInt ≤ 10000) (hv : 2048 * t.val ≤ v.toNat ∧ v.toNat < 2048 * t.val + 2048) :
    (IntOp.andi (IntOp.cmpi .slt (IntOp.muli (BitVec.ofNat 32 t.val) 2048#32) (IntOp.addi mx 1#32))
      (IntOp.cmpi .sgt (IntOp.addi (IntOp.muli (BitVec.ofNat 32 t.val) 2048#32) 2048#32) mn)).setWidth 32 ≠ 0#32 := by
  have eA : ∀ t : Fin 5, (IntOp.muli (BitVec.ofNat 32 t.val) 2048#32).toNat = 2048 * t.val := by decide
  have eC : ∀ t : Fin 5, (IntOp.addi (IntOp.muli (BitVec.ofNat 32 t.val) 2048#32) 2048#32).toNat = 2048 * t.val + 2048 := by decide
  have := BitVec.toInt_eq_toNat_cond mn; have := BitVec.toInt_eq_toNat_cond mx; have := BitVec.toInt_eq_toNat_cond v
  have := mn.isLt; have := mx.isLt; have := v.isLt; have := t.isLt
  have eB : (IntOp.addi mx 1#32).toNat = mx.toNat + 1 := by
    show (mx + 1#32).toNat = _
    rw [BitVec.toNat_add]
    show (mx.toNat + 1) % 2 ^ 32 = _
    omega
  rw [(slt_iff_toNat (by rw [eA]; omega) (by omega)).mpr (by rw [eA]; omega), (sgt_iff_toNat (by rw [eC]; omega) (by omega)).mpr (by rw [eC]; omega)]
  decide

/-- Entry (e, t) compares tile t's bounds 2048·t and 2048·t + 2048 with the extremes of block e, which bracket each of its 1024 ids. -/
theorem mask_ne_zero (Vin : Valuation τ sig (Elt Ideal)) (d : IVec S651264 32) (hd : Vin (Proc.devRef .tc main_v35) = d)
    (e : Fin 636) (t : Fin 5) (i : Fin 1024) (hb : ∀ p : Fin 651264, (d (ValueIdx.ix1 p)).toNat ≤ 10000)
    (hi : 2048 * t.val ≤ (d (ValueIdx.ix1 (⟨1024 * e.val + i.val, by omega⟩ : Fin 651264))).toNat
      ∧ (d (ValueIdx.ix1 (⟨1024 * e.val + i.val, by omega⟩ : Fin 651264))).toNat < 2048 * t.val + 2048) :
    (StableHlo.after (hostOps1 (F := Ideal)) Vin (Proc.devRef .tc main_v61) : S636x5.Idx → BitVec 32) (ij e t) ≠ 0#32 := by
  after_results_simp
  rw [hd]
  have hT : ∀ v : IVec S5 32, broadcastInDim S636x5 ![0, 1] bcast_S1x5_S636x5_0_1
      (broadcastInDim S1x5 ![1] bcast_S5_S1x5_1 v) (ij e t) = v (Shape.Idx.ofFin t) := fun v => bcast_cols _ _ v e t
  have hB : ∀ v : IVec S636x1 32, broadcastInDim S636x5 ![0, 1] bcast_S636x1_S636x5_0_1 v (ij e t) = v (ixP e) :=
    fun v => bcast_of_col _ v e t
  have hC : ∀ v : IVec S636 32, broadcastInDim S636x1 ![0] bcast_S636_S636x1_0 v (ixP e) = v (Shape.Idx.ofFin e) :=
    fun v => bcast_col1 _ v e
  simp only [extui, andi, cmpi, addi, muli, hT, hB, hC, iotaInDim, Shape.Idx.ofFin_zero, Host.reduce_eq_fold]
  have hall : ∀ p, (0 : ℤ) ≤ (d p).toInt ∧ (d p).toInt ≤ 10000 := fun p => by
    have h : (d p).toNat ≤ 10000 := by rw [ValueIdx.eq_ix1 p]; exact hb _
    rw [toInt_eq_toNat_of_lt (by omega)]
    omega
  have hmem : ij e i ∈ Finset.univ.filter fun k : S636x1024.Idx => reducesTo_S636x1024_S636_d1.drop k = Shape.Idx.ofFin e :=
    Finset.mem_filter.mpr ⟨Finset.mem_univ _, funext fun b => by
      obtain rfl : b = 0 := Subsingleton.elim _ _
      exact Fin.ext (Shape.ReducesTo.drop_apply_val_of_eq _ _ 0 0)⟩
  rw [← shapeCast_apply d shapeCasts_S651264_S636x1024 (ij e i) (ValueIdx.ix1 ⟨1024 * e.val + i.val, by omega⟩)
    (by rw [Shape.rowMajor_val_two, Shape.rowMajor_val_one]; show 1024 * e.val + i.val = e.val * 1024 + i.val; omega)] at hi
  refine flag_ne_zero t _ _ _ ?_ ?_ ?_ ?_ hi
  · exact (fold_bound (fun (z : ℤ) w => z ≤ w.toInt) le_minsi _ _ _ 0).mpr ⟨by decide, fun a _ => (hall _).1⟩
  · exact ((fold_bound (fun (z : ℤ) w => z ≤ w.toInt) le_minsi _ _ _ _).mp le_rfl).2 _ hmem
  · exact ((fold_bound (fun (z : ℤ) w => w.toInt ≤ z) maxsi_le _ _ _ _).mp le_rfl).2 _ hmem
  · exact (fold_bound (fun (z : ℤ) w => w.toInt ≤ z) maxsi_le _ _ _ 10000).mpr ⟨by decide, fun a _ => (hall _).2⟩

theorem mask_sound (outs : Outs (F := Ideal)) (c : Dev nD) (e : Fin 636) (t : Fin 5) (i : Fin 1024)
    (hb : ∀ p : Fin 651264, ((V9 m c main_v35 : S651264.Idx → BitVec 32) (ValueIdx.ix1 p)).toNat ≤ 10000)
    (hi : 2048 * t.val ≤ ((V9 m c main_v35 : S651264.Idx → BitVec 32)
            (ValueIdx.ix1 (⟨1024 * e.val + i.val, by omega⟩ : Fin 651264))).toNat
        ∧ ((V9 m c main_v35 : S651264.Idx → BitVec 32)
            (ValueIdx.ix1 (⟨1024 * e.val + i.val, by omega⟩ : Fin 651264))).toNat < 2048 * t.val + 2048) :
    (V11 m outs c main_v61 : S636x5.Idx → BitVec 32) (ValueIdx.ix2 e t) ≠ 0#32 :=
  mask_ne_zero (V10 m outs c) _ (V10_of m outs c main_v35 (by decide)) e t i hb hi

end Cert.KernelIdeal.Hand

end
-- ==== Proof.AggMath.lean ====
import proofs.«419665_j81406810129006_3_alg».proof.Proof.Spec
import Mathlib.Data.EReal.Basic
import Mathlib.Algebra.BigOperators.Fin
import Mathlib.Algebra.BigOperators.Ring.Finset
import Mathlib.Tactic.Ring
import Mathlib.Tactic.Choose

noncomputable section

namespace Cert.Spec

open Idealize.ShloMosaic ValueIdx

variable (ei : Sei.Idx → BitVec 32) (x : Sx.Idx → EReal) (W : Sw.Idx → EReal) (b : Sb.Idx → EReal)

theorem coe_real_sum {ι : Type*} (s : Finset ι) (f : ι → ℝ) :
    (∑ i ∈ s, ((f i : ℝ) : EReal)) = ((∑ i ∈ s, f i : ℝ) : EReal) :=
  (map_sum (⟨⟨Real.toEReal, EReal.coe_zero⟩, EReal.coe_add⟩ : ℝ →+ EReal) f s).symm

theorem dinv_real (n : ℕ) : ∃ r : ℝ, dinv ei n = (r : EReal) := by
  unfold dinv
  split_ifs with h
  · have hmax : max ((indeg ei n : ℝ) : EReal) ((1 : ℝ) : EReal) = ((max (indeg ei n : ℝ) 1 : ℝ) : EReal) :=
      (EReal.coe_strictMono.monotone.map_max).symm
    have hpos : (0 : ℝ) < max (indeg ei n : ℝ) 1 := lt_max_of_lt_right one_pos
    rw [hmax, Ideal.rsqrt_coe, if_neg (not_lt.mpr hpos.le), if_neg hpos.ne']
    exact ⟨_, rfl⟩
  · exact ⟨0, EReal.coe_zero.symm⟩

theorem feat_real (hF : Finite x W) (n : ℕ) (k : Fin 128) : ∃ r : ℝ, feat x W n k = (r : EReal) := by
  obtain ⟨hx, hW⟩ := hF
  choose xr hxr using hx
  choose wr hwr using hW
  unfold feat
  split_ifs with h
  · refine ⟨∑ f : Fin 128, xr (ix2 (⟨n, h⟩ : Fin 10000) f) * wr (ix2 f k), ?_⟩
    rw [← coe_real_sum]
    apply Finset.sum_congr rfl
    intro f _
    rw [hxr, hwr, EReal.coe_mul]
  · exact ⟨0, EReal.coe_zero.symm⟩

def posTerm (n : ℕ) (k : Fin 128) (q : Fin 651264) : EReal :=
  if dstPad ei q = n then hsRow ei x W (srcPad ei q) k else 0

theorem halfSum_add (σ : Fin 651264 → Fin 651264) (n : ℕ) (k : Fin 128) :
    halfSum ei x W σ 0 n k + halfSum ei x W σ 1 n k = ∑ p : Fin 651264, posTerm ei x W n k (σ p) :=
  (congrArg₂ (· + ·)
    (Finset.sum_congr rfl fun p _ => congrArg (fun q => posTerm ei x W n k (σ q)) (Fin.ext (Nat.zero_add _))) rfl).trans
    (Fin.sum_univ_add (a := 325632) (b := 325632) fun p => posTerm ei x W n k (σ p)).symm

theorem posTerm_sum (n : Fin 10000) (k : Fin 128) :
    (∑ q : Fin 651264, posTerm ei x W n.val k q)
      = ∑ e : Fin 650000, if dstId ei e = n.val then hsRow ei x W (srcId ei e) k else 0 := by
  have key := Fin.sum_univ_add (a := 650000) (b := 1264)
    (fun q : Fin (650000 + 1264) => posTerm ei x W n.val k q)
  refine key.trans ?_
  have hz : (∑ i : Fin 1264, posTerm ei x W n.val k (Fin.natAdd 650000 i)) = 0 := by
    apply Finset.sum_eq_zero
    intro i _
    have hs : dstPad ei (Fin.natAdd 650000 i) = 10000 := by
      unfold dstPad
      rw [dif_neg]
      simp
    unfold posTerm
    rw [if_neg]
    rw [hs]
    have := n.isLt
    omega
  rw [hz, add_zero]
  apply Finset.sum_congr rfl
  intro e _
  have he : ∀ h, (⟨(Fin.castAdd 1264 e).val, h⟩ : Fin 650000) = e := fun h => Fin.ext (by simp)
  have hlt : (Fin.castAdd 1264 e).val < 650000 := by simp
  unfold posTerm dstPad srcPad
  rw [dif_pos hlt, dif_pos hlt, he]

theorem mul_sum_real {ι : Type*} (a : ℝ) (s : Finset ι) (f : ι → EReal) (hf : ∀ i, ∃ r : ℝ, f i = (r : EReal)) :
    (a : EReal) * ∑ i ∈ s, f i = ∑ i ∈ s, (a : EReal) * f i := by
  choose r hr using hf
  simp only [hr, ← EReal.coe_mul, coe_real_sum, Finset.mul_sum]

theorem agg_eq (hR : InRange ei) (hF : Finite x W) (σ : Fin 651264 → Fin 651264) (hσ : Function.Bijective σ)
    (n : Fin 10000) (k : Fin 128) :
    dinv ei n.val * (halfSum ei x W σ 0 n.val k + halfSum ei x W σ 1 n.val k) + b (ValueIdx.ix1 k)
      = preact ei x W b n k := by
  obtain ⟨d, hd⟩ := dinv_real ei n.val
  rw [halfSum_add, hσ.sum_comp (posTerm ei x W n.val k), posTerm_sum, hd, mul_sum_real d _ _ fun e => ?_, ← hd]
  · refine congrArg (· + b (ValueIdx.ix1 k)) (Finset.sum_congr rfl fun e _ => ?_)
    by_cases h : dstId ei e = n.val
    · rw [if_pos h, if_pos h, h, hsRow, mul_comm (dinv ei (srcId ei e)) (dinv ei n.val), mul_assoc, mul_comm (dinv ei (srcId ei e))]
    · rw [if_neg h, if_neg h, mul_zero]
  · beta_reduce
    by_cases h : dstId ei e = n.val
    · obtain ⟨g, hg⟩ := feat_real x W hF (srcId ei e) k
      obtain ⟨d', hd'⟩ := dinv_real ei (srcId ei e)
      exact ⟨g * d', by rw [if_pos h, hsRow, hg, hd', EReal.coe_mul]⟩
    · exact ⟨0, by rw [if_neg h, EReal.coe_zero]⟩

end Cert.Spec

end
-- ==== Proof.PosWords.lean ====
import proofs.«419665_j81406810129006_3_alg».proof.Proof.Spec
import proofs.«419665_j81406810129006_3_alg».proof.Proof.AggMath
import Mathlib.Data.EReal.Basic
import Mathlib.Data.Finset.Card
import Mathlib.Algebra.BigOperators.Group.Finset.Basic

noncomputable section

namespace Cert.Spec

open Idealize.ShloMosaic ValueIdx

variable (ei : Sei.Idx → BitVec 32) (x : Sx.Idx → EReal) (W : Sw.Idx → EReal)

theorem toNat_lt_of_toInt (w : BitVec 32) (h0 : (0 : ℤ) ≤ w.toInt) (h1 : w.toInt < 10000) : w.toNat < 10000 := by
  have hw := w.isLt
  rw [BitVec.toInt_eq_toNat_cond] at h0 h1
  split_ifs at h0 h1 <;> omega

theorem srcId_lt (hR : InRange ei) (e : Fin 650000) : srcId ei e < 10000 := by
  unfold srcId
  split_ifs with h
  · exact toNat_lt_of_toInt _ (hR _).1 (hR _).2
  · have := e.isLt
    omega

theorem dstId_lt (hR : InRange ei) (e : Fin 650000) : dstId ei e < 10000 := by
  unfold dstId
  split_ifs with h
  · exact toNat_lt_of_toInt _ (hR _).1 (hR _).2
  · have := e.isLt
    omega

theorem srcPad_le (hR : InRange ei) (q : Fin 651264) : srcPad ei q ≤ 10000 := by
  unfold srcPad
  split_ifs with h
  · exact (srcId_lt ei hR _).le
  · exact le_refl _

theorem dstPad_le (hR : InRange ei) (q : Fin 651264) : dstPad ei q ≤ 10000 := by
  unfold dstPad
  split_ifs with h
  · exact (dstId_lt ei hR _).le
  · exact le_refl _

theorem indeg_eq_zero_of_ge (hR : InRange ei) (n : ℕ) (hn : 10000 ≤ n) : indeg ei n = 0 := by
  unfold indeg
  rw [Finset.card_eq_zero, Finset.filter_eq_empty_iff]
  intro e _ he
  have := dstId_lt ei hR e
  omega

theorem toNat_ofNat_le (v : ℕ) (hv : v ≤ 10000) : (BitVec.ofNat 32 v).toNat = v := by
  rw [BitVec.toNat_ofNat]
  exact Nat.mod_eq_of_lt (by omega)

theorem halfSum_of_words (hR : InRange ei) (σ : Fin 651264 → Fin 651264) (dW sW : Fin 651264 → BitVec 32)
    (hd : ∀ p, dW p = BitVec.ofNat 32 (dstPad ei (σ p))) (hs : ∀ p, sW p = BitVec.ofNat 32 (srcPad ei (σ p)))
    (hsA : ℕ → Fin 128 → EReal) (hhs : ∀ j, j < 10240 → ∀ k, hsA j k = hsRow ei x W j k) (core : Fin 2) (n : ℕ)
    (k : Fin 128) :
    (∑ p : Fin 325632,
        if (dW ⟨core.val * 325632 + p.val, by have := core.isLt; have := p.isLt; omega⟩).toNat = n then
          hsA (sW ⟨core.val * 325632 + p.val, by have := core.isLt; have := p.isLt; omega⟩).toNat k else 0)
      = halfSum ei x W σ core n k := by
  unfold halfSum
  apply Finset.sum_congr rfl
  intro p _
  rw [hd, hs, toNat_ofNat_le _ (dstPad_le ei hR _), toNat_ofNat_le _ (srcPad_le ei hR _),
    hhs _ (lt_of_le_of_lt (srcPad_le ei hR _) (by norm_num))]

end Cert.Spec

end
-- ==== Proof.Degree.lean ====
import proofs.«419665_j81406810129006_3_alg».proof.Proof.PosWords
import Idealize.ShloMosaic.Lib.ValueIdxRank1
import Idealize.ShloMosaic.Lib.Pipeline.Value
import Idealize.ShloMosaic.Lib.IdealHost
import Idealize.ShloMosaic.Lib.WordArith
import Idealize.ShloMosaic.PureOps.Ideal.Laws

noncomputable section

namespace Cert.Spec

open Idealize.ShloMosaic ValueIdx

variable (ei : Sei.Idx → BitVec 32)

/-- A vector laid out as a column reads, at row `e`, the vector's entry `e`. -/
theorem col_apply {α : Type} {n : ℕ} (h : (⟨1, ![n]⟩ : Shape).BroadcastsInDim ⟨2, ![n, 1]⟩ ![0]) (v : (⟨1, ![n]⟩ : Shape).Idx → α)
    (e : Fin n) : broadcastInDim ⟨2, ![n, 1]⟩ ![0] h v (ix2 e (0 : Fin 1)) = v (ix1 e) :=
  broadcastInDim_apply _ h v _ _ fun a => match a with
    | ⟨0, _⟩ => by
      show e.val = if n = 1 then 0 else e.val
      split
      · have := e.isLt; omega
      · rfl

/-- The constants zero and one, spread over any shape. -/
theorem splat_zero {T : Shape} (h : (⟨0, ![]⟩ : Shape).BroadcastsInDim T ![]) (j : T.Idx) :
    broadcastInDim T ![] h (constant (F := Ideal) ⟨0, ![]⟩ .f32 0x00000000#32) j = 0 :=
  (broadcastInDim_scalar_apply h _ j).trans Ideal.ofBits_zero_f32
theorem splat_one {T : Shape} (h : (⟨0, ![]⟩ : Shape).BroadcastsInDim T ![]) (j : T.Idx) :
    broadcastInDim T ![] h (constant (F := Ideal) ⟨0, ![]⟩ .f32 0x3F800000#32) j = 1 :=
  (broadcastInDim_scalar_apply h _ j).trans Ideal.ofBits_one_f32

/-- Row `r` of the edge array laid flat, then the node numbers: position `e` holds edge `e`'s endpoint `r`, a loop's being its node. -/
theorem ends_apply (r : Fin 2) (hs : Sei.Slices ![r.val, 0] ⟨2, ![1, 640000]⟩)
    (hc : (⟨2, ![1, 640000]⟩ : Shape).ShapeCasts ⟨1, ![640000]⟩)
    (hk : Shape.Concatenates [⟨1, ![640000]⟩, ⟨1, ![10000]⟩] ⟨1, ![650000]⟩ 0) (e : Fin 650000) :
    concatenate ⟨1, ![650000]⟩ 0 [⟨_, shapeCast _ (extractStridedSlice _ ![r.val, 0] ei hs) hc⟩, ⟨_, iotaInDim ⟨1, ![10000]⟩ 32 0⟩] hk (ix1 e)
      = BitVec.ofNat 32 (if h : e.val < 640000 then (ei (ix2 r ⟨e.val, h⟩)).toNat else e.val - 640000) := by
  split
  · next h =>
    rw [BitVec.ofNat_toNat, BitVec.setWidth_eq]
    refine (concatenate_pair_apply_left (s₁ := ⟨1, ![640000]⟩) (s₂ := ⟨1, ![10000]⟩) (0 : Fin 1) _ _ hk (ix1 e) rfl (ix1 ⟨e.val, h⟩)
      (fun b => match b with | ⟨0, _⟩ => rfl)).trans ?_
    refine (shapeCast_apply _ hc (ix1 ⟨e.val, h⟩) (ix2 (0 : Fin 1) ⟨e.val, h⟩) ?_).trans ?_
    · rewrite [Shape.rowMajor_val_two, Shape.rowMajor_val_one]
      show 0 * 640000 + e.val = e.val
      omega
    · exact extractStridedSlice_apply _ ei hs _ _ (fun a => match a with
        | ⟨0, _⟩ => rfl
        | ⟨1, _⟩ => (Nat.zero_add _).symm)
  · next h =>
    have h' : e.val - 640000 < 10000 := by have := e.isLt; omega
    exact concatenate_pair_apply_right (s₁ := ⟨1, ![640000]⟩) (s₂ := ⟨1, ![10000]⟩) (0 : Fin 1) _ _ hk (ix1 e) rfl rfl (ix1 ⟨e.val - 640000, h'⟩)
      (fun b hb => absurd (Subsingleton.elim _ _) hb) (by show e.val - 640000 + 640000 = e.val; omega)

/-- An update lands at `i` exactly when, on every axis, its start plus its window coordinate is `i`'s coordinate. -/
theorem resultIdx?_eq_some {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split
  · next h =>
    rw [Option.some.injEq, funext_iff]
    refine forall_congr' fun a => Fin.ext_iff.trans ?_
    have := h a
    show (d.start j idx a + (d.window j a : ℤ)).toNat = (i a).val ↔ _
    omega
  · next h =>
    refine iff_of_false nofun fun hi => h fun a => ?_
    have := (i a).isLt
    rw [hi a]
    omega

section Count
variable {N n w : ℕ} (wf : ScatterDims.WF ⟨1, ![N]⟩ ⟨2, ![n, 1]⟩ ⟨1, ![n]⟩ [] [0] [0] 1)

/-- A sum by index over a table: a column of index words, one single-entry update for each. -/
abbrev countDims : ScatterDims ⟨1, ![N]⟩ ⟨2, ![n, 1]⟩ ⟨1, ![n]⟩ := ⟨[], [0], [0], 1, wf⟩

/-- Update `j` lands on entry `m` exactly when its index word reads, signed, as `m`. -/
theorem count_lands (idx : IVec ⟨2, ![n, 1]⟩ w) (j : Fin n) (m : Fin N) :
    (countDims wf).resultIdx? (ix1 j) idx = some (ix1 m) ↔ (idx (ix2 j (0 : Fin 1))).toInt = (m.val : ℤ) := by
  have hs : (countDims wf).start (ix1 j) idx 0 = (idx (ix2 j (0 : Fin 1))).toInt := by
    unfold ScatterDims.start
    rw [dif_pos (List.mem_singleton.mpr rfl)]
    congr 2
    funext b
    match b with
    | ⟨0, _⟩ => rfl
    | ⟨1, _⟩ => rfl
  have hw : (countDims wf).window (ix1 j) 0 = 0 := by
    unfold ScatterDims.window
    rw [dif_neg (show (0 : Fin 1) ∉ (countDims wf).sKept from fun h => of_decide_eq_true (List.mem_filter.1 h).2 (List.mem_singleton.mpr rfl))]
  rw [resultIdx?_eq_some, Fin.forall_fin_one, hs, hw, Nat.cast_zero, add_zero]

end Count

/-- The in-degree as a sum by index: from zero, a one added at its destination for every edge. -/
theorem deg_apply (hR : InRange ei) (wf : ScatterDims.WF ⟨1, ![10000]⟩ ⟨2, ![650000, 1]⟩ ⟨1, ![650000]⟩ [] [0] [0] 1)
    (z : (⟨1, ![10000]⟩ : Shape).Idx → EReal) (idx : IVec ⟨2, ![650000, 1]⟩ 32) (o : (⟨1, ![650000]⟩ : Shape).Idx → EReal)
    (hz : ∀ i, z i = 0) (hi : ∀ e, idx (ix2 e (0 : Fin 1)) = BitVec.ofNat 32 (dstId ei e)) (ho : ∀ j, o j = 1) (m : Fin 10000) :
    Host.scatterAdd (F := Ideal) (φ := .f32) (countDims wf) z idx o (ix1 m) = ((indeg ei m.val : ℝ) : EReal) := by
  show z _ + ∑ j ∈ Finset.univ.filter (fun j => (countDims wf).resultIdx? j idx = some (ix1 m)), o j = _
  rw [hz, zero_add, Finset.sum_congr rfl fun j _ => ho j, Finset.sum_const, nsmul_one, ← EReal.coe_natCast]
  refine congrArg (fun k : ℕ => ((k : ℝ) : EReal)) (Finset.card_equiv idxEquiv1 fun j => ?_)
  obtain ⟨e, rfl⟩ : ∃ e, j = ix1 e := ⟨j 0, eq_ix1 j⟩
  simp only [Finset.mem_filter, Finset.mem_univ, true_and]
  rw [count_lands, hi, WordArith.toInt_ofNat_small _ (by have := dstId_lt ei hR e; omega)]
  exact Nat.cast_inj

/-- `dinv` from the in-degree: its inverse square root where it is positive, zero elsewhere. -/
theorem dinv_of_deg {d z o z' : (⟨1, ![10000]⟩ : Shape).Idx → EReal} (n : Fin 10000)
    (hd : d (ix1 n) = ((indeg ei n.val : ℝ) : EReal)) (hz : z (ix1 n) = 0) (ho : o (ix1 n) = 1) (hz' : z' (ix1 n) = 0) :
    select (cmpf (F := Ideal) (φ := .f32) .ogt d z) (Host.rsqrt (F := Ideal) (φ := .f32) (maximumf (F := Ideal) (φ := .f32) d o)) z' (ix1 n)
      = dinv ei n.val := by
  show Scalar.select (Ideal.cmp .ogt (d (ix1 n)) (z (ix1 n))) (Ideal.rsqrt (max (d (ix1 n)) (o (ix1 n)))) (z' (ix1 n)) = _
  rw [hd, hz, ho, hz']
  unfold dinv
  split
  · next hp =>
    rw [show Ideal.cmp .ogt ((indeg ei n.val : ℝ) : EReal) 0 = 1#1 from
      congrArg BitVec.ofBool (decide_eq_true (EReal.coe_pos.2 (Nat.cast_pos.2 hp))), select_one, EReal.coe_one]
  · next hp =>
    rw [show Ideal.cmp .ogt ((indeg ei n.val : ℝ) : EReal) 0 = 0#1 from
      congrArg BitVec.ofBool (decide_eq_false fun h => hp (Nat.cast_pos.1 (EReal.coe_pos.1 h))), select_zero]

end Cert.Spec

end
-- ==== Proof.HostFeatures.lean ====
import proofs.«419665_j81406810129006_3_alg».proof.Proof.Gen.KernelIdeal.Regions
import proofs.«419665_j81406810129006_3_alg».proof.Proof.Degree
import Idealize.ShloMosaic.Lib.StableHlo.Run
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

set_option maxRecDepth 2000

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx
open Cert.Spec (ends_apply deg_apply dinv_of_deg col_apply splat_zero splat_one)

variable (m : (ℓ : Loc nD τ sig) → Buf (Elt Ideal) ℓ)

abbrev eiOf (c : Dev nD) : S2x640000.Idx → BitVec 32 := m ((c : Thread nD τ).loc main_arg1)
abbrev xOf (c : Dev nD) : S10000x128.Idx → EReal := m ((c : Thread nD τ).loc main_arg0)

section Stretches

abbrev zeros10000 : S10000.Idx → EReal := broadcastInDim S10000 ![] bcast_S_S10000 (constant (F := Ideal) S_ .f32 0x00000000#32)
abbrev ones10000 : S10000.Idx → EReal := broadcastInDim S10000 ![] bcast_S_S10000 (constant (F := Ideal) S_ .f32 0x3F800000#32)

/-- The in-degrees as the program spells them: from zero, a one added at its destination for every edge. -/
def degOf (ei : S2x640000.Idx → BitVec 32) : S10000.Idx → EReal :=
  Host.scatterAdd (F := Ideal) (φ := .f32) scatter_S10000_S650000x1_S650000_n_0_0_1 zeros10000
    (broadcastInDim S650000x1 ![0] bcast_S650000_S650000x1_0 (concatenate S650000 0
      [⟨S640000, shapeCast S640000 (extractStridedSlice S1x640000 ![1, 0] ei slices_S2x640000_S1x640000_1_0) shapeCasts_S1x640000_S640000⟩,
       ⟨S10000, iotaInDim S10000 32 0⟩] concatenates_S640000_S10000_S650000_d0))
    (broadcastInDim S650000 ![] bcast_S_S650000 (constant (F := Ideal) S_ .f32 0x3F800000#32))

def dinvOf (ei : S2x640000.Idx → BitVec 32) : S10000.Idx → EReal :=
  select (cmpf (F := Ideal) (φ := .f32) .ogt (degOf ei) zeros10000)
    (Host.rsqrt (F := Ideal) (φ := .f32) (maximumf (F := Ideal) (φ := .f32) (degOf ei) ones10000))
    (broadcastInDim S10000 ![] bcast_S_S10000 (id (constant (F := Ideal) S_ .f32 0x00000000#32)))

abbrev padZero : S_.Idx → EReal := sitofp (F := Ideal) .f32 (constantI S_ 32 0#32)

variable (W : Valuation τ sig (Elt Ideal))

theorem hostOps0_v12 : (StableHlo.after hostOps0 W (Proc.devRef .tc main_v12) : S10000.Idx → BitVec 1)
    = cmpf (F := Ideal) (φ := .f32) .ogt (degOf (W main_arg1)) zeros10000 := by
  after_results
  all_goals rfl

theorem hostOps0_v15 : (StableHlo.after hostOps0 W (Proc.devRef .tc main_v15) : S10000.Idx → EReal)
    = Host.rsqrt (F := Ideal) (φ := .f32) (maximumf (F := Ideal) (φ := .f32) (degOf (W main_arg1)) ones10000) := by
  after_results
  all_goals rfl

theorem hostOps0_cst3 : (StableHlo.after hostOps0 W (Proc.devRef .tc main_cst_3) : S_.Idx → EReal)
    = constant (F := Ideal) S_ .f32 0x00000000#32 := by
  after_results
  all_goals rfl

theorem hostOps0_1_v16 : (StableHlo.after hostOps0_1 W (Proc.devRef .tc main_v16) : S10000.Idx → EReal)
    = select (W main_v12 : S10000.Idx → BitVec 1) (W main_v15 : S10000.Idx → EReal)
        (broadcastInDim S10000 ![] bcast_S_S10000 (id (W main_cst_3 : S_.Idx → EReal))) := by
  after_results
  all_goals rfl

theorem stretch_xpad : (StableHlo.after hostOps0_5 (StableHlo.after hostOps0_4 W) (Proc.devRef .tc main_v36) : S10240x128.Idx → EReal)
    = pad S10240x128 ![0, 0] ![240, 0] ![0, 0] (W main_arg0 : S10000x128.Idx → EReal) padZero pads_S10000x128_S10240x128_02400_000 h_S_ := by
  after_results
  all_goals rfl

theorem stretch_dinvcol :
    (StableHlo.after hostOps0_8 (StableHlo.after hostOps0_7 (StableHlo.after hostOps0_6 W)) (Proc.devRef .tc main_v38) : S10240x1.Idx → EReal)
      = broadcastInDim S10240x1 ![0] bcast_S10240_S10240x1_0
          (pad S10240 ![0] ![240] ![0] (W main_v16 : S10000.Idx → EReal) padZero pads_S10000_S10240_02400 h_S_) := by
  after_results
  all_goals rfl

end Stretches

section Entries
variable (ei : S2x640000.Idx → BitVec 32)

theorem srcId_lt (hR : Cert.Spec.InRange ei) (e : Fin 650000) : Cert.Spec.srcId ei e < 10000 := Cert.Spec.srcId_lt ei hR e

theorem dstId_lt (hR : Cert.Spec.InRange ei) (e : Fin 650000) : Cert.Spec.dstId ei e < 10000 := Cert.Spec.dstId_lt ei hR e

theorem dinvOf_apply (hR : Cert.Spec.InRange ei) (n : Fin 10000) : dinvOf ei (ValueIdx.ix1 n) = Cert.Spec.dinv ei n.val :=
  dinv_of_deg ei n
    (deg_apply ei hR _ _ _ _ (splat_zero _) (fun e => (col_apply _ _ e).trans (ends_apply ei 1 _ _ _ e)) (splat_one _) n)
    (splat_zero _ _) (splat_one _ _) (splat_zero _ _)

/-- The pad value is the integer 0 read as a float. -/
theorem padZero_apply (i : S_.Idx) : padZero i = 0 := by
  show (((0#32 : BitVec 32).toInt : ℝ) : EReal) = 0
  rw [BitVec.toInt_zero, Int.cast_zero, EReal.coe_zero]

/-- A table lengthened by 240 pad entries and laid out as a column: the table below 10000, zero from there on. -/
theorem padcol_apply (d : S10000.Idx → EReal) (j : Fin 10240) :
    broadcastInDim S10240x1 ![0] bcast_S10240_S10240x1_0 (pad S10240 ![0] ![240] ![0] d padZero pads_S10000_S10240_02400 h_S_)
        (ValueIdx.ix2 j (0 : Fin 1))
      = if h : j.val < 10000 then d (ValueIdx.ix1 (⟨j.val, h⟩ : Fin 10000)) else 0 := by
  refine (col_apply _ _ j).trans ?_
  split
  · next h =>
    exact pad_apply_of_inside ![0] ![240] ![0] d padZero pads_S10000_S10240_02400 h_S_ (ValueIdx.ix1 j)
      (ValueIdx.ix1 (⟨j.val, h⟩ : Fin 10000)) (fun a => match a with
        | ⟨0, _⟩ => by show j.val = 0 + j.val * (0 + 1); omega)
  · next h =>
    refine (pad_apply_of_not_inside ![0] ![240] ![0] d padZero pads_S10000_S10240_02400 h_S_ (ValueIdx.ix1 j)
      (0 : Fin S10000.rank) ?_).trans (padZero_apply _)
    show ¬(0 ≤ j.val ∧ (j.val - 0) % (0 + 1) = 0 ∧ (j.val - 0) / (0 + 1) < 10000)
    omega

end Entries

section Deliver
variable (c : Dev nD)

theorem V6_dinv : (V6 m c main_v16 : S10000.Idx → EReal) = dinvOf (eiOf m c) := by
  rw [V6_of m c main_v16 (by decide), V5_of m c main_v16 (by decide), V4_of m c main_v16 (by decide), V3_of m c main_v16 (by decide)]
  show StableHlo.after hostOps0_1 (V1 m c) (Proc.devRef .tc main_v16) = _
  rw [hostOps0_1_v16 (V1 m c)]
  show select (StableHlo.after hostOps0 (V0 m c) (Proc.devRef .tc main_v12)) (StableHlo.after hostOps0 (V0 m c) (Proc.devRef .tc main_v15))
    (broadcastInDim S10000 ![] bcast_S_S10000 (id (StableHlo.after hostOps0 (V0 m c) (Proc.devRef .tc main_cst_3)))) = _
  rw [hostOps0_v12 (V0 m c), hostOps0_v15 (V0 m c), hostOps0_cst3 (V0 m c)]
  rfl

theorem xpad_apply (j : Fin 10240) (f : Fin 128) :
    (V9 m c main_v36 : S10240x128.Idx → EReal) (ValueIdx.ix2 j f)
      = if h : j.val < 10000 then xOf m c (ValueIdx.ix2 (⟨j.val, h⟩ : Fin 10000) f) else 0 := by
  rw [V9_of m c main_v36 (by decide), V8_of m c main_v36 (by decide), V7_of m c main_v36 (by decide)]
  refine (congrFun (stretch_xpad (V4 m c)) _).trans ?_
  rw [show (V4 m c main_arg0 : S10000x128.Idx → EReal) = xOf m c by
    rw [V4_of m c main_arg0 (by decide), V3_of m c main_arg0 (by decide), V2_of m c main_arg0 (by decide), V1_of m c main_arg0 (by decide)]]
  split
  · next h =>
    exact pad_apply_of_inside ![0, 0] ![240, 0] ![0, 0] (xOf m c) padZero pads_S10000x128_S10240x128_02400_000 h_S_ (ValueIdx.ix2 j f)
      (ValueIdx.ix2 (⟨j.val, h⟩ : Fin 10000) f) (fun a => match a with
        | ⟨0, _⟩ => by show j.val = 0 + j.val * (0 + 1); omega
        | ⟨1, _⟩ => by show f.val = 0 + f.val * (0 + 1); omega)
  · next h =>
    refine (pad_apply_of_not_inside ![0, 0] ![240, 0] ![0, 0] (xOf m c) padZero pads_S10000x128_S10240x128_02400_000 h_S_ (ValueIdx.ix2 j f)
      (0 : Fin S10000x128.rank) ?_).trans (padZero_apply _)
    show ¬(0 ≤ j.val ∧ (j.val - 0) % (0 + 1) = 0 ∧ (j.val - 0) / (0 + 1) < 10000)
    omega

theorem dinv_apply (hR : Cert.Spec.InRange (eiOf m c)) (n : Fin 10000) :
    (V9 m c main_v16 : S10000.Idx → EReal) (ValueIdx.ix1 n) = Cert.Spec.dinv (eiOf m c) n.val := by
  rw [V9_of m c main_v16 (by decide), V8_of m c main_v16 (by decide), V7_of m c main_v16 (by decide), V6_dinv]
  exact dinvOf_apply (eiOf m c) hR n

theorem dinvcol_apply (hR : Cert.Spec.InRange (eiOf m c)) (j : Fin 10240) :
    (V9 m c main_v38 : S10240x1.Idx → EReal) (ValueIdx.ix2 j (0 : Fin 1)) = Cert.Spec.dinv (eiOf m c) j.val := by
  refine (congrFun (stretch_dinvcol (V6 m c)) _).trans ?_
  rw [V6_dinv, padcol_apply]
  split
  · next h => exact dinvOf_apply (eiOf m c) hR ⟨j.val, h⟩
  · next h =>
    unfold Cert.Spec.dinv
    rw [Cert.Spec.indeg_eq_zero_of_ge (eiOf m c) hR j.val (Nat.le_of_not_lt h), if_neg (lt_irrefl 0)]

end Deliver

end Cert.KernelIdeal.Hand

end
-- ==== Proof.DenseValue.lean ====
import proofs.«419665_j81406810129006_3_alg».proof.Proof.DenseRegion
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Into a zero accumulator the tile product at (p, q) is the sum over the shared axis of a[p, f] · b[f, q]. -/
theorem tile_product (a : FVec Ideal S2048x128 .bf16) (b : FVec Ideal S128x128 .bf16) (p : Fin 2048) (q : Fin 128) :
    matmul dot_S2048x128_S128x128_S2048x128_1_0_0_1_n_n none a b (constant (F := Ideal) S2048x128 .f32 0x00000000#32) (ix2 p q)
      = ∑ f : Fin 128, a (ix2 p f) * b (ix2 f q) := by
  simp only [matmul]
  rw [Ideal.matmul_constant_zero_apply, ← Equiv.sum_comp (contrEquiv1 dot_S2048x128_S128x128_S2048x128_1_0_0_1_n_n 128 rfl rfl).symm]
  refine Finset.sum_congr rfl fun f _ => ?_
  have hf := contrEquiv1_symm_val dot_S2048x128_S128x128_S2048x128_1_0_0_1_n_n 128 rfl rfl f
  congr 2 <;> funext x <;> apply Fin.ext <;> match x with
    | ⟨0, _⟩ | ⟨1, _⟩ =>
      first
        | exact (DotDims.lhsIdx_val_of_single _ rfl _ _).trans hf
        | exact (DotDims.rhsIdx_val_of_single _ rfl _ _).trans hf
        | rfl

/-- Narrowing is the identity on extended reals, so the stored value is the sum of products times the row's degree entry. -/
theorem tile_payload (x : Vec Ideal S2048x128 .f32) (w : Vec Ideal S128x128 .f32) (d : Vec Ideal S2048x1 .f32) (p : Fin 2048) (q : Fin 128) :
    k0_pay1 (F := Ideal) x w d (ix2 p q)
      = (∑ f : Fin 128, (x (ix2 p f) : EReal) * w (ix2 f q)) * d (ix2 p (0 : Fin 1)) := by
  unfold k0_pay1
  rw [truncf_apply, mulf_apply, tile_product,
    broadcastTo_apply _ broadcasts_S2048x1_S2048x128 (ix2 p q) (ix2 p (0 : Fin 1)) (Fin.forall_fin_two.2 ⟨rfl, rfl⟩)]
  simp only [shapeCast_self, truncf_apply]

theorem zero_offsets : (![0, 0] : Fin 2 → Nat) = fun _ => 0 := funext fun a => by fin_cases a <;> rfl

/-- The single write covers the tile and each operand is read whole. -/
theorem denseOut_eq_payload (x : Vec Ideal S2048x128 .f32) (w : Vec Ideal S128x128 .f32) (d : Vec Ideal S2048x1 .f32) :
    denseOut (F := Ideal) x w d = k0_pay1 x w d := by
  unfold denseOut
  rw [View.canon_unit_zero zero_offsets]
  simp only [View.ld_unit_zero (S := S2048x128) zero_offsets, View.ld_unit_zero (S := S128x128) zero_offsets, View.ld_unit_zero (S := S2048x1) zero_offsets]

variable (V : (c : Dev nD) → (b : Ref sig .tc) → Buf (Elt Ideal) ((c : Thread nD τ).loc b))

/-- Point t's tiles sit at row-tile t, column-tile 0; the weights' at (0, 0). -/
theorem tile_positions : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0
  ∧ win0_3.index t (0 : Fin 2) = t.val ∧ win0_3.index t (1 : Fin 2) = 0 :=
  (by decide +kernel : ∀ t : Fin grid0.N, _)

def denseEntry (X : S10240x128.Idx → EReal) (W : S128x128.Idx → EReal) (D : S10240x1.Idx → EReal) (j : Fin 10240) (k : Fin 128) : EReal :=
  (∑ f : Fin 128, X (ValueIdx.ix2 j f) * W (ValueIdx.ix2 f k)) * D (ValueIdx.ix2 j (0 : Fin 1))

theorem denseEntry_eq (X : S10240x128.Idx → EReal) (W : S128x128.Idx → EReal) (D : S10240x1.Idx → EReal) (j : Fin 10240) (k : Fin 128) :
    denseEntry X W D j k = (∑ f : Fin 128, X (ValueIdx.ix2 j f) * W (ValueIdx.ix2 f k)) * D (ValueIdx.ix2 j (0 : Fin 1)) := rfl

def denseWhole (c : Dev nD) : S10240x128.Idx → EReal :=
  fun i => denseEntry (V c main_v36) (V c main_arg3) (V c main_v38) (i 0) (i 1)

/-- Each operand tile at point t shows the rows 2048·t … of its array (the weight tile all of W) and the output tile sits at the same rows, so t writes back its block of the closed form. -/
theorem dense_written_back (c : Dev nD) (t : Fin cfg0.N) :
    (denseDat V c).flushed 3 t = ((cfg0.win 3).blk t).view.read (Elt Ideal) (denseWhole V c) := by
  show (cfg0.win 3).cut (grid0.coords t) ((denseDat V c).after 3 t) = _
  rw [denseDat_after3, denseOut_eq_payload]
  obtain ⟨e0, e1, e2, e3, e4, e5, e6, e7⟩ := tile_positions t
  funext y
  obtain ⟨p, q, rfl⟩ : ∃ (p : Fin 2048) (q : Fin 128), y = ix2 p q := ⟨y 0, y 1, eq_ix2 y⟩
  refine (tile_payload _ _ _ p q).trans ?_
  show _ = denseEntry _ _ _ _ _
  unfold denseEntry
  congr 1
  · refine Finset.sum_congr rfl fun f _ => ?_
    congr 1
    · refine congrArg (V c main_v36) (funext fun a => Fin.ext ?_)
      match a with
      | ⟨0, _⟩ => show win0_0.index t (0 : Fin 2) * 2048 + 1 * p.val = win0_3.index t (0 : Fin 2) * 2048 + 1 * p.val; omega
      | ⟨1, _⟩ => show win0_0.index t (1 : Fin 2) * 128 + 1 * f.val = f.val; omega
    · refine congrArg (V c main_arg3) (funext fun a => Fin.ext ?_)
      match a with
      | ⟨0, _⟩ => show win0_1.index t (0 : Fin 2) * 128 + 1 * f.val = f.val; omega
      | ⟨1, _⟩ => show win0_1.index t (1 : Fin 2) * 128 + 1 * q.val = win0_3.index t (1 : Fin 2) * 128 + 1 * q.val; omega
  · refine congrArg (V c main_v38) (funext fun a => Fin.ext ?_)
    match a with
    | ⟨0, _⟩ => show win0_2.index t (0 : Fin 2) * 2048 + 1 * p.val = win0_3.index t (0 : Fin 2) * 2048 + 1 * p.val; omega
    | ⟨1, _⟩ => show win0_2.index t (1 : Fin 2) * 1 + 1 * 0 = 0; omega

/-- Row r lies in the output tile of point r / 2048, and five tiles of 2048 rows cover the 10240 rows. -/
theorem out_tiles_cover (i : S10240x128.Idx) :
    ∃ t : Fin cfg0.N, (cfg0.win 3).flush t = true ∧ i ∈ ((cfg0.win 3).blk t).view.set := by
  have hi0 : (i 0).val < 10240 := (i 0).isLt
  have hi1 : (i 1).val < 128 := (i 1).isLt
  obtain ⟨t, ht⟩ : ∃ t : Fin cfg0.N, t.val = (i 0).val / 2048 := ⟨⟨_, by rw [show cfg0.N = 5 from N_0]; omega⟩, rfl⟩
  obtain ⟨-, -, -, -, -, -, e6, e7⟩ := tile_positions t
  refine ⟨t, flush0_3 _, ?_⟩
  show i ∈ ((View.whole main_v39).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- Every index was last written by the point whose tile holds it, with the closed form's value there. -/
theorem dense_arr (c : Dev nD) (j : Fin 10240) (k : Fin 128) :
    (denseDat V c).arrAt 3 cfg0.N (ValueIdx.ix2 j k) = denseEntry (V c main_v36) (V c main_arg3) (V c main_v38) j k :=
  congrFun ((denseDat V c).arrAt_eq_of_cover 3 (denseWhole V c) (fun t _ => dense_written_back V c t) out_tiles_cover) _

end Cert.KernelIdeal.Hand

end
-- ==== Proof.ScaledRows.lean ====
import proofs.«419665_j81406810129006_3_alg».proof.Proof.KernelRun
import proofs.«419665_j81406810129006_3_alg».proof.Proof.DenseValue
import proofs.«419665_j81406810129006_3_alg».proof.Proof.HostFeatures
import proofs.«419665_j81406810129006_3_alg».proof.Proof.Bridge
import proofs.«419665_j81406810129006_3_alg».proof.Proof.Spec

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

abbrev wOf (c : Dev nD) : S128x128.Idx → EReal := m ((c : Thread nD τ).loc main_arg3)

theorem hs_entry (c : Dev nD) (hR : Cert.Spec.InRange (eiOf m c)) (j : Fin 10240) (k : Fin 128) :
    (hsOut m c : S10240x128.Idx → EReal) (ValueIdx.ix2 j k) = Cert.Spec.hsRow (eiOf m c) (xOf m c) (wOf m c) j.val k := by
  unfold hsOut
  rw [dense_arr (denseIn m) c j k]
  show denseEntry (V9 m c main_v36) (V9 m c main_arg3) (V9 m c main_v38) j k = _
  rw [Bridge.V9_weights m c, denseEntry_eq, dinvcol_apply m c hR j]
  unfold Cert.Spec.hsRow Cert.Spec.feat
  congr 1
  by_cases h : j.val < 10000
  · rw [dif_pos h]
    refine Finset.sum_congr rfl fun f _ => ?_
    rw [xpad_apply m c j f, dif_pos h]
  · rw [dif_neg h]
    refine Finset.sum_eq_zero fun f _ => ?_
    rw [xpad_apply m c j f, dif_neg h, zero_mul]

end Cert.KernelIdeal.Hand

end
-- ==== Proof.KernelValue.lean ====
import proofs.«419665_j81406810129006_3_alg».proof.Proof.KernelRun
import proofs.«419665_j81406810129006_3_alg».proof.Proof.KernelTail
import proofs.«419665_j81406810129006_3_alg».proof.Proof.FusedEntry
import proofs.«419665_j81406810129006_3_alg».proof.Proof.Bridge
import proofs.«419665_j81406810129006_3_alg».proof.Proof.HostSorted
import proofs.«419665_j81406810129006_3_alg».proof.Proof.HostMask
import proofs.«419665_j81406810129006_3_alg».proof.Proof.HostFeatures
import proofs.«419665_j81406810129006_3_alg».proof.Proof.ScaledRows
import proofs.«419665_j81406810129006_3_alg».proof.Proof.PosWords
import proofs.«419665_j81406810129006_3_alg».proof.Proof.AggMath
import proofs.«419665_j81406810129006_3_alg».proof.Proof.Spec

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

theorem srcSorted_le (c : Dev nD) (hR : Cert.Spec.InRange (eiOf m c)) (p : Fin 651264) :
    ((V9 m c main_v28 : S651264.Idx → BitVec 32) (ValueIdx.ix1 p)).toNat ≤ 10000 := by
  rw [srcSorted_apply m c hR p, Cert.Spec.toNat_ofNat_le _ (Cert.Spec.srcPad_le _ hR _)]
  exact Cert.Spec.srcPad_le _ hR _

theorem dstSorted_le (c : Dev nD) (hR : Cert.Spec.InRange (eiOf m c)) (p : Fin 651264) :
    ((V9 m c main_v35 : S651264.Idx → BitVec 32) (ValueIdx.ix1 p)).toNat ≤ 10000 := by
  rw [dstSorted_apply m c hR p, Cert.Spec.toNat_ofNat_le _ (Cert.Spec.dstPad_le _ hR _)]
  exact Cert.Spec.dstPad_le _ hR _

def hsAt (c : Dev nD) (j : ℕ) (k : Fin 128) : EReal :=
  if h : j < 10240 then (hsOut m c : S10240x128.Idx → EReal) (ValueIdx.ix2 (⟨j, h⟩ : Fin 10240) k) else 0

theorem hsAt_eq (c : Dev nD) (hR : Cert.Spec.InRange (eiOf m c)) (j : ℕ) (hj : j < 10240) (k : Fin 128) :
    hsAt m c j k = Cert.Spec.hsRow (eiOf m c) (xOf m c) (wOf m c) j k := by
  unfold hsAt
  rw [dif_pos hj]
  exact hs_entry m c hR ⟨j, hj⟩ k

theorem read_mod_row (H : S10240x128.Idx → EReal) (j : ℕ) (hj : j < 10240) (k : Fin 128) :
    H (ValueIdx.ix2 (⟨j % 10240, Nat.mod_lt _ (by decide)⟩ : Fin 10240) k)
      = if h : j < 10240 then H (ValueIdx.ix2 (⟨j, h⟩ : Fin 10240) k) else 0 := by
  rw [dif_pos hj]
  exact congrArg (fun q : Fin 10240 => H (ValueIdx.ix2 q k)) (Fin.ext (Nat.mod_eq_of_lt hj))

theorem fused_half (c : Dev nD) (hR : Cert.Spec.InRange (eiOf m c)) (co : Fin 2) (n : Fin 10240) (k : Fin 128) :
    (fusedOut m c : S2x10240x128.Idx → EReal) (ValueIdx.ix3 co n k)
      = Cert.Spec.halfSum (eiOf m c) (xOf m c) (wOf m c) (sortPerm m c) co n.val k := by
  unfold fusedOut
  refine (fused_entry (fusedIn m) c ?_ ?_ co n k).trans ?_
  · intro p
    rw [Bridge.fusedIn_src m c]
    exact lt_of_le_of_lt (srcSorted_le m c hR p) (by norm_num)
  · intro t tile r hi
    rw [Bridge.maskTbl_fusedIn m c]
    rw [Bridge.fusedIn_dst m c] at hi
    exact mask_sound m (kOuts m) c t tile r (fun p => dstSorted_le m c hR p) hi
  · show @Eq EReal _ _
    unfold gatherSum
    rw [← Cert.Spec.halfSum_of_words (eiOf m c) (xOf m c) (wOf m c) hR (sortPerm m c)
        (fun q => (V9 m c main_v35 : S651264.Idx → BitVec 32) (ValueIdx.ix1 q))
        (fun q => (V9 m c main_v28 : S651264.Idx → BitVec 32) (ValueIdx.ix1 q))
        (fun p => dstSorted_apply m c hR p) (fun p => srcSorted_apply m c hR p)
        (hsAt m c) (fun j hj k => hsAt_eq m c hR j hj k) co n.val k]
    refine Finset.sum_congr rfl fun p _ => ?_
    simp only [Bridge.fusedIn_dst m c, Bridge.fusedIn_src m c, Bridge.fusedIn_hs m c]
    refine if_congr Iff.rfl ?_ rfl
    unfold hsAt
    exact read_mod_row (hsOut m c) _ (lt_of_le_of_lt (srcSorted_le m c hR _) (by norm_num)) k

theorem kernel_preact (m : (ℓ : Loc nD τ sig) → Buf (Elt Ideal) ℓ) (c : Dev nD)
    (hR : Cert.Spec.InRange (m ((c : Thread nD τ).loc main_arg1)))
    (hF : Cert.Spec.Finite (m ((c : Thread nD τ).loc main_arg0)) (m ((c : Thread nD τ).loc main_arg3)))
    (n : Fin 10000) (k : Fin 128) :
    V13 m (kOuts m) c main_v74 (ValueIdx.ix2 n k)
      = Cert.Spec.preact (m ((c : Thread nD τ).loc main_arg1)) (m ((c : Thread nD τ).loc main_arg0))
          (m ((c : Thread nD τ).loc main_arg3)) (m ((c : Thread nD τ).loc main_arg4)) n k := by
  rw [preact_apply m (kOuts m) c n k]
  unfold preactEntry
  rw [dinv_apply m c hR n, kOuts_62 m c,
    fused_half m c hR (0 : Fin 2) (⟨n.val, Nat.lt_of_lt_of_le n.isLt (by decide)⟩ : Fin 10240) k,
    fused_half m c hR (1 : Fin 2) (⟨n.val, Nat.lt_of_lt_of_le n.isLt (by decide)⟩ : Fin 10240) k]
  exact Cert.Spec.agg_eq _ _ _ _ hR hF (sortPerm m c) (sortPerm_bijective m c) n k

end Cert.KernelIdeal.Hand

end
-- ==== Proof.RefDinv.lean ====
import proofs.«419665_j81406810129006_3_alg».proof.Proof.RefRead
import proofs.«419665_j81406810129006_3_alg».proof.Proof.Degree

noncomputable section

namespace Cert.ReferenceIdeal.RefValue3

open Cert.ReferenceIdeal Cert.ReferenceIdeal.Gen Idealize.ShloMosaic Idealize.ShloMosaic.ValueIdx
open Cert.Spec (ends_apply deg_apply dinv_of_deg col_apply splat_zero splat_one)

variable (ei : IVec S2x640000 32)

theorem srcAll_apply (e : Fin 650000) :
    ReadP.val_main_v4 (F := Ideal) ei (ix1 e) = BitVec.ofNat 32 (Cert.Spec.srcId ei e) :=
  ends_apply ei 0 _ _ _ e

theorem dstAll_apply (e : Fin 650000) :
    ReadP.val_main_v7 (F := Ideal) ei (ix1 e) = BitVec.ofNat 32 (Cert.Spec.dstId ei e) :=
  ends_apply ei 1 _ _ _ e

theorem dstId_lt (hR : Cert.Spec.InRange ei) (e : Fin 650000) : Cert.Spec.dstId ei e < 10000 :=
  Cert.Spec.dstId_lt ei hR e

theorem srcId_lt (hR : Cert.Spec.InRange ei) (e : Fin 650000) : Cert.Spec.srcId ei e < 10000 :=
  Cert.Spec.srcId_lt ei hR e

/-- The normaliser is read off the in-degree, and the in-degree counts the destination list. -/
theorem dinv_apply (hR : Cert.Spec.InRange ei) (n : Fin 10000) :
    ReadP.val_main_v17 (F := Ideal) ei (ix1 n) = Cert.Spec.dinv ei n.val :=
  dinv_of_deg ei n
    (deg_apply ei hR _ _ _ _ (splat_zero _) (fun e => (col_apply _ _ e).trans (dstAll_apply ei e)) (splat_one _) n)
    (splat_zero _ _) (splat_one _ _) (splat_zero _ _)

end Cert.ReferenceIdeal.RefValue3

end
-- ==== Proof.RefPre.lean ====
import proofs.«419665_j81406810129006_3_alg».proof.Proof.RefRead
import proofs.«419665_j81406810129006_3_alg».proof.Proof.Spec
import proofs.«419665_j81406810129006_3_alg».proof.Proof.RefDinv
import Idealize.ShloMosaic.Lib.ValueIdx
import Idealize.ShloMosaic.Lib.Pipeline.Value
import Idealize.ShloMosaic.PureOps.Ideal.Laws

noncomputable section

namespace Cert.ReferenceIdeal.RefValue2

open Cert.ReferenceIdeal Cert.ReferenceIdeal.Gen Idealize.ShloMosaic Idealize.ShloMosaic.ValueIdx
open Cert.Spec (resultIdx?_eq_some col_apply splat_zero)
open Idealize.ShloMosaic.WordArith (toInt_ofNat_small)

theorem srcId_lt (ei : IVec S2x640000 32) (hR : Cert.Spec.InRange ei) (e : Fin 650000) :
    Cert.Spec.srcId ei e < 10000 := Cert.Spec.srcId_lt ei hR e

theorem dstId_lt (ei : IVec S2x640000 32) (hR : Cert.Spec.InRange ei) (e : Fin 650000) :
    Cert.Spec.dstId ei e < 10000 := Cert.Spec.dstId_lt ei hR e

/-- Update `(e, c)` of a sum of rows by index lands in the row its index word names, read signed, at column `c`. -/
theorem out_lands (idx : IVec S650000x1 32) (e : Fin 650000) (c : Fin 128) (n : Fin 10000) (k : Fin 128) :
    scatter_S10000x128_S650000x1_S650000x128_1_0_0_1.resultIdx? (ix2 e c) idx = some (ix2 n k)
      ↔ (idx (ix2 e (0 : Fin 1))).toInt = (n.val : Int) ∧ c = k := by
  have hst0 : scatter_S10000x128_S650000x1_S650000x128_1_0_0_1.start (ix2 e c) idx (0 : Fin 2) = (idx (ix2 e (0 : Fin 1))).toInt := by
    unfold ScatterDims.start
    rw [dif_pos (show (0 : Fin 2) ∈ scatter_S10000x128_S650000x1_S650000x128_1_0_0_1.scatterDimsToOperandDims from List.mem_singleton.mpr rfl)]
    congr 2
    funext b
    match b with
    | ⟨0, _⟩ => rfl
    | ⟨1, _⟩ => rfl
  have hst1 : scatter_S10000x128_S650000x1_S650000x128_1_0_0_1.start (ix2 e c) idx (1 : Fin 2) = 0 := by
    unfold ScatterDims.start
    rw [dif_neg (by decide)]
  have hw0 : scatter_S10000x128_S650000x1_S650000x128_1_0_0_1.window (ix2 e c) (0 : Fin 2) = 0 := by
    unfold ScatterDims.window
    rw [dif_neg (by decide)]
  have hw1 : scatter_S10000x128_S650000x1_S650000x128_1_0_0_1.window (ix2 e c) (1 : Fin 2) = c.val := by
    unfold ScatterDims.window
    rw [dif_pos (by decide)]
    rfl
  rw [resultIdx?_eq_some, Fin.forall_fin_two, hst0, hst1, hw0, hw1, Fin.ext_iff]
  show _ + ((0 : ℕ) : ℤ) = (n.val : ℤ) ∧ (0 : ℤ) + (c.val : ℤ) = (k.val : ℤ) ↔ _
  omega

/-- A table read at a column of index words: position `e` reads the entry its word names, read signed and held inside the table. -/
theorem take_apply {α : Type} (x : S10000.Idx → α) (idx : IVec S650000x1 32) (e : Fin 650000) :
    Host.gather gather_S10000_S650000x1_S650000_n_0_n_n_0_1_1 x idx (ix1 e)
      = x (ix1 (⟨min (idx (ix2 e (0 : Fin 1))).toInt.toNat 9999, by omega⟩ : Fin 10000)) := by
  unfold Host.gather
  congr 1
  funext a
  obtain rfl : a = 0 := Subsingleton.elim _ _
  apply Fin.ext
  show gather_S10000_S650000x1_S650000_n_0_n_n_0_1_1.start (ix1 e) idx (0 : Fin 1) + gather_S10000_S650000x1_S650000_n_0_n_n_0_1_1.batchCoord (ix1 e) (0 : Fin 1) + gather_S10000_S650000x1_S650000_n_0_n_n_0_1_1.offCoord (ix1 e) (0 : Fin 1) = _
  rw [GatherDims.batchCoord_eq_zero _ _ _ List.not_mem_nil, GatherDims.offCoord_eq_zero _ _ _ (by decide)]
  unfold GatherDims.start
  rw [dif_pos (show (0 : Fin 1) ∈ gather_S10000_S650000x1_S650000_n_0_n_n_0_1_1.startIndexMap from List.mem_singleton.mpr rfl)]
  show min (idx _).toInt.toNat (10000 - 1) = min (idx (ix2 e (0 : Fin 1))).toInt.toNat 9999
  congr 3
  congr 1
  funext b
  match b with
  | ⟨0, _⟩ => rfl
  | ⟨1, _⟩ => rfl

/-- The same for whole rows of a table with 128 columns. -/
theorem rows_apply {α : Type} (x : S10000x128.Idx → α) (idx : IVec S650000x1 32) (e : Fin 650000) (c : Fin 128) :
    Host.gather gather_S10000x128_S650000x1_S650000x128_1_0_n_n_0_1_1128 x idx (ix2 e c)
      = x (ix2 (⟨min (idx (ix2 e (0 : Fin 1))).toInt.toNat 9999, by omega⟩ : Fin 10000) c) := by
  unfold Host.gather
  congr 1
  funext a
  apply Fin.ext
  match a with
  | ⟨0, _⟩ =>
    show gather_S10000x128_S650000x1_S650000x128_1_0_n_n_0_1_1128.start (ix2 e c) idx (0 : Fin 2) + gather_S10000x128_S650000x1_S650000x128_1_0_n_n_0_1_1128.batchCoord (ix2 e c) (0 : Fin 2) + gather_S10000x128_S650000x1_S650000x128_1_0_n_n_0_1_1128.offCoord (ix2 e c) (0 : Fin 2) = _
    rw [GatherDims.batchCoord_eq_zero _ _ _ List.not_mem_nil, GatherDims.offCoord_eq_zero _ _ _ (by decide)]
    unfold GatherDims.start
    rw [dif_pos (show (0 : Fin 2) ∈ gather_S10000x128_S650000x1_S650000x128_1_0_n_n_0_1_1128.startIndexMap from List.mem_singleton.mpr rfl)]
    show min (idx _).toInt.toNat (10000 - 1) = min (idx (ix2 e (0 : Fin 1))).toInt.toNat 9999
    congr 3
    congr 1
    funext b
    match b with
    | ⟨0, _⟩ => rfl
    | ⟨1, _⟩ => rfl
  | ⟨1, _⟩ =>
    show gather_S10000x128_S650000x1_S650000x128_1_0_n_n_0_1_1128.start (ix2 e c) idx (1 : Fin 2) + gather_S10000x128_S650000x1_S650000x128_1_0_n_n_0_1_1128.batchCoord (ix2 e c) (1 : Fin 2) + gather_S10000x128_S650000x1_S650000x128_1_0_n_n_0_1_1128.offCoord (ix2 e c) (1 : Fin 2) = c.val
    rw [GatherDims.batchCoord_eq_zero _ _ _ List.not_mem_nil]
    unfold GatherDims.start GatherDims.offCoord
    rw [dif_neg (by decide), dif_pos (by decide)]
    simp only [Nat.zero_add]
    rfl

/-- A list of node ids keeps them through the negative-index correction and the layout as a column. -/
theorem norm_col (w z a : S650000.Idx → BitVec 32) (e : Fin 650000) {m : ℕ} (hm : m < 10000)
    (hw : w (ix1 e) = BitVec.ofNat 32 m) (hz : z (ix1 e) = 0#32) :
    broadcastInDim S650000x1 ![0] bcast_S650000_S650000x1_0 (select (cmpi .slt w z) a w) (ix2 e (0 : Fin 1))
      = BitVec.ofNat 32 m := by
  refine (col_apply _ _ e).trans ?_
  show Scalar.select (BitVec.ofBool ((w (ix1 e)).slt (z (ix1 e)))) _ _ = _
  rw [hz, hw, show (BitVec.ofNat 32 m).slt 0#32 = false from
    decide_eq_false (by rw [toInt_ofNat_small m (by omega), BitVec.toInt_zero]; omega)]
  rfl

/-- A node id's word, read signed and held inside the table, names the node. -/
theorem clamp_node {w : BitVec 32} (m : Fin 10000) (hw : w = BitVec.ofNat 32 m.val) :
    (⟨min w.toInt.toNat 9999, by omega⟩ : Fin 10000) = m := by
  have := m.isLt
  refine Fin.ext ?_
  show min w.toInt.toNat 9999 = m.val
  rw [hw, toInt_ofNat_small _ (by omega)]
  omega

section
variable (x : FVec Ideal S10000x128 .f32) (ei : IVec S2x640000 32) (W : FVec Ideal S128x128 .f32) (hR : Cert.Spec.InRange ei)
  (e : Fin 650000)
include hR

theorem dinv_src : ReadP.val_main_v24 (F := Ideal) ei (ix1 e) = Cert.Spec.dinv ei (Cert.Spec.srcId ei e) :=
  (take_apply _ _ e).trans <| (congrArg _ (congrArg ix1 (clamp_node ⟨_, srcId_lt ei hR e⟩
    (norm_col _ _ _ e (srcId_lt ei hR e) (RefValue3.srcAll_apply ei e) (broadcastInDim_scalar_apply _ _ _))))).trans
    (RefValue3.dinv_apply ei hR _)

theorem dinv_dst : ReadP.val_main_v31 (F := Ideal) ei (ix1 e) = Cert.Spec.dinv ei (Cert.Spec.dstId ei e) :=
  (take_apply _ _ e).trans <| (congrArg _ (congrArg ix1 (clamp_node ⟨_, dstId_lt ei hR e⟩
    (norm_col _ _ _ e (dstId_lt ei hR e) (RefValue3.dstAll_apply ei e) (broadcastInDim_scalar_apply _ _ _))))).trans
    (RefValue3.dinv_apply ei hR _)

omit hR in
/-- Row `m` of the product `x W`. -/
theorem feat_apply (m : Fin 10000) (c : Fin 128) :
    ReadP.val_main_v0 (F := Ideal) x W (ix2 m c) = Cert.Spec.feat x W m.val c := by
  rw [ReadP.val_main_v0_apply]
  unfold Cert.Spec.feat
  rw [dif_pos m.isLt]
  refine Finset.sum_congr rfl fun f _ => ?_
  have hl : ReadP.lidx_main_v0 (ix2 m c) f = ix2 (⟨m.val, m.isLt⟩ : Fin 10000) f :=
    funext fun a => match a with | ⟨0, _⟩ => rfl | ⟨1, _⟩ => rfl
  have hr : ReadP.ridx_main_v0 (ix2 m c) f = ix2 f c :=
    funext fun a => match a with | ⟨0, _⟩ => rfl | ⟨1, _⟩ => rfl
  rw [hl, hr]

theorem feat_src (c : Fin 128) :
    ReadP.val_main_v40 (F := Ideal) x ei W (ix2 e c) = Cert.Spec.feat x W (Cert.Spec.srcId ei e) c :=
  (rows_apply _ _ e c).trans <| (congrArg _ (congrArg (ix2 · c) (clamp_node ⟨_, srcId_lt ei hR e⟩
    (norm_col _ _ _ e (srcId_lt ei hR e) (RefValue3.srcAll_apply ei e) (broadcastInDim_scalar_apply _ _ _))))).trans
    (feat_apply x W ⟨_, srcId_lt ei hR e⟩ c)

/-- Message `e`, feature `c`: the edge's normalisation times the source's feature row. -/
theorem msg_apply (c : Fin 128) :
    ReadP.val_main_v42 (F := Ideal) x ei W (ix2 e c)
      = (Cert.Spec.dinv ei (Cert.Spec.srcId ei e) * Cert.Spec.dinv ei (Cert.Spec.dstId ei e))
        * Cert.Spec.feat x W (Cert.Spec.srcId ei e) c := by
  rw [ReadP.val_main_v42_apply, Ideal.mulf_def, feat_src x ei W hR e c, ReadP.val_main_v41_apply]
  have h1 : ReadP.idx_main_v41 (ix2 e c) = ix2 e (0 : Fin 1) :=
    funext fun a => match a with | ⟨0, _⟩ => rfl | ⟨1, _⟩ => rfl
  rw [h1, show ReadP.val_main_v33 (F := Ideal) ei (ix2 e (0 : Fin 1)) = _ from col_apply _ _ e, ReadP.val_main_v32_apply, Ideal.mulf_def,
    dinv_src ei hR e, dinv_dst ei hR e]

end

/-- A sum of updates by index, read at one place: what was there plus every update that lands there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- The message sum at node `n`, feature `k`: over all positions, the messages of those ending in `n`. -/
theorem out_apply (x : FVec Ideal S10000x128 .f32) (ei : IVec S2x640000 32) (W : FVec Ideal S128x128 .f32)
    (hR : Cert.Spec.InRange ei) (n : Fin 10000) (k : Fin 128) :
    ReadP.val_main_v45 (F := Ideal) x ei W (ix2 n k)
      = ∑ e : Fin 650000, if Cert.Spec.dstId ei e = n.val then
          (Cert.Spec.dinv ei (Cert.Spec.srcId ei e) * Cert.Spec.dinv ei (Cert.Spec.dstId ei e))
            * Cert.Spec.feat x W (Cert.Spec.srcId ei e) k else 0 := by
  have hd : ∀ e, (ReadP.val_main_v44 (F := Ideal) ei (ix2 e (0 : Fin 1))).toInt = (Cert.Spec.dstId ei e : Int) := fun e => by
    rw [show ReadP.val_main_v44 (F := Ideal) ei (ix2 e (0 : Fin 1)) = _ from col_apply _ _ e, RefValue3.dstAll_apply,
      toInt_ofNat_small _ (by have := dstId_lt ei hR e; omega)]
  refine (scatterAdd_apply _ _ _ _ _).trans ?_
  rw [show ReadP.val_main_v43 (F := Ideal) (ix2 n k) = 0 from splat_zero _ _, zero_add, Finset.sum_filter, sum_idx2]
  refine Fintype.sum_congr _ _ fun e => ?_
  by_cases hdn : Cert.Spec.dstId ei e = n.val
  · rw [if_pos hdn, Finset.sum_eq_single_of_mem k (Finset.mem_univ k)
      (fun c _ hc => if_neg fun h => hc ((out_lands _ e c n k).mp h).2),
      if_pos ((out_lands _ e k n k).mpr ⟨by rw [hd e, hdn], rfl⟩)]
    exact msg_apply x ei W hR e k
  · rw [if_neg hdn]
    exact Finset.sum_eq_zero fun c _ => if_neg fun h => hdn (by
      have := ((out_lands _ e c n k).mp h).1
      rw [hd e] at this
      exact_mod_cast this)

/-- The reference's pre-activation at node `n`, feature `k` is the specification's. -/
theorem pre_apply (x : FVec Ideal S10000x128 .f32) (ei : IVec S2x640000 32) (W : FVec Ideal S128x128 .f32)
    (b : FVec Ideal S128 .f32) (hR : Cert.Spec.InRange ei) (n : Fin 10000) (k : Fin 128) :
    ReadP.val_main_v48 (F := Ideal) x ei W b (ix2 n k) = Cert.Spec.preact ei x W b n k := by
  rw [ReadP.val_main_v48_apply, Ideal.addf_def, out_apply x ei W hR n k, ReadP.val_main_v47_apply,
    ReadP.val_main_v46_apply]
  unfold Cert.Spec.preact
  congr 2
  funext a
  match a with
  | ⟨0, _⟩ => rfl

end Cert.ReferenceIdeal.RefValue2

end
-- ==== Proof.TailsAgree.lean ====
import proofs.«419665_j81406810129006_3_alg».proof.Proof.KernelTail
import proofs.«419665_j81406810129006_3_alg».proof.Proof.RefTail

noncomputable section

namespace Cert.TailsAgree

open Idealize.ShloMosaic

variable {F : FTy → Type} [FloatOps F]

/-- Both tails are the same operations with the same constants over equal shapes, so they agree by unfolding. -/
theorem kTail_eq_refTail (z : FVec F Cert.KernelIdeal.S10000x128 .f32) (bi : IVec Cert.KernelIdeal.S10000 32)
    (Wfc : FVec F Cert.KernelIdeal.S128x2 .f32) (bfc : FVec F Cert.KernelIdeal.S2 .f32) :
    Cert.KernelIdeal.Hand.kTail (F := F) z bi Wfc bfc = Cert.ReferenceIdeal.RefValue.refTail (F := F) z bi Wfc bfc :=
  rfl

end Cert.TailsAgree

end
-- ==== Proof.PreFacts.lean ====
import proofs.«419665_j81406810129006_3_alg».proof.Pre_finite_inputs
import proofs.«419665_j81406810129006_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Proof.PreFacts

open Idealize.ShloMosaic Cert.Pre_finite_inputs

instance scalarIdxSubsingleton : Subsingleton S_.Idx := ⟨fun a b => funext fun d => d.elim0⟩

theorem inf_pattern : Ideal.ofBits .f32 0x7F800000#32 = (⊤ : EReal) := by
  simp [Ideal.ofBits, Ideal.ieee]

theorem real_of_abs_lt_inf (v : EReal)
    (h : FloatOps.cmpf (F := Ideal) (φ := .f32) .olt (FloatOps.hostAbsf (F := Ideal) (φ := .f32) v)
          (FloatOps.ofBits (F := Ideal) .f32 0x7F800000#32) = 1#1) : ∃ r : ℝ, v = (r : EReal) := by
  have h' : Ideal.cmp .olt (max v (-v)) (Ideal.ofBits .f32 0x7F800000#32) = 1#1 := h
  rw [inf_pattern] at h'
  simp only [Ideal.cmp, StableHlo.Predicate.ofBool_eq_one_iff, decide_eq_true_eq] at h'
  induction v using EReal.rec with
  | bot => simp at h'
  | top => simp at h'
  | coe r => exact ⟨r, rfl⟩

theorem node_id_of_compares (w : BitVec 32) (h0 : IntOp.cmpi .sge w 0#32 = 1#1) (h1 : IntOp.cmpi .slt w 10000#32 = 1#1) :
    (0 : ℤ) ≤ w.toInt ∧ w.toInt < 10000 := by
  simp only [IntOp.cmpi, StableHlo.Predicate.ofBool_eq_one_iff, BitVec.sle, BitVec.slt, decide_eq_true_eq] at h0 h1
  have z : (0#32).toInt = 0 := by decide
  have t : (10000#32).toInt = 10000 := by decide
  rw [z] at h0; rw [t] at h1
  exact ⟨h0, h1⟩

theorem toNat_lt_of_node_id (w : BitVec 32) (h : (0 : ℤ) ≤ w.toInt ∧ w.toInt < 10000) : w.toNat < 10000 := by
  obtain ⟨h0, h1⟩ := h
  have hw := w.isLt
  rw [BitVec.toInt_eq_toNat_cond] at h0 h1
  split at h0 <;> omega

theorem entries_real {s : Shape} {axes : List (Fin s.rank)} (v : FVec Ideal s .f32)
    (hb : S_.BroadcastsInDim s (![] : Fin 0 → Fin s.rank)) (hr : s.ReducesTo axes S_) (h0 : 0 < S_.numel)
    (h : Host.reduce IntOp.andi
          (cmpf .olt (Host.absf v) (broadcastInDim s ![] hb (constant S_ .f32 0x7F800000#32)))
          (constantI S_ 1 1#1) hr h0 ValueIdx.ix0 = 1#1) :
    ∀ i, ∃ r : ℝ, v i = (r : EReal) :=
  fun i => real_of_abs_lt_inf (v i) (Host.reduce_andi_all _ _ _ _ _ h i)

theorem endpoints_are_nodes (ei : IVec S2x640000 32)
    (hb : S_.BroadcastsInDim S2x640000 (![] : Fin 0 → Fin S2x640000.rank)) (hr : S2x640000.ReducesTo [0, 1] S_) (h0 : 0 < S_.numel)
    (h : Host.reduce IntOp.andi
          (andi (cmpi .sge ei (broadcastInDim S2x640000 ![] hb (constantI S_ 32 0#32)))
                (cmpi .slt ei (broadcastInDim S2x640000 ![] hb (constantI S_ 32 10000#32))))
          (constantI S_ 1 1#1) hr h0 ValueIdx.ix0 = 1#1) :
    ∀ i, (0 : ℤ) ≤ (ei i).toInt ∧ (ei i).toInt < 10000 := by
  intro i
  have both : IntOp.andi (IntOp.cmpi .sge (ei i) 0#32) (IntOp.cmpi .slt (ei i) 10000#32) = 1#1 :=
    Host.reduce_andi_all _ _ _ _ _ h i
  obtain ⟨lo, hi⟩ := IntOp.andi_eq_one.1 both
  exact node_id_of_compares (ei i) lo hi

theorem of_pre (x : FVec Ideal S10000x128 .f32) (ei : IVec S2x640000 32) (bi : IVec S10000 32) (W : FVec Ideal S128x128 .f32)
    (b : FVec Ideal S128 .f32) (Wfc : FVec Ideal S128x2 .f32) (bfc : FVec Ideal S2 .f32)
    (h : Cert.Pre_finite_inputs.fn (F := Ideal) x ei bi W b Wfc bfc = fun _ => 1#1) :
    (∀ i, ∃ r : ℝ, x i = (r : EReal)) ∧ (∀ i, ∃ r : ℝ, W i = (r : EReal)) ∧ (∀ i, ∃ r : ℝ, b i = (r : EReal))
      ∧ (∀ i, ∃ r : ℝ, Wfc i = (r : EReal)) ∧ (∀ i, ∃ r : ℝ, bfc i = (r : EReal))
      ∧ (∀ i, (0 : ℤ) ≤ (ei i).toInt ∧ (ei i).toInt < 10000) := by
  have e := congrFun h ValueIdx.ix0
  dsimp only [fn, fn_part1] at e
  simp only [Idealize.ShloMosaic.andi, IntOp.andi_eq_one] at e
  obtain ⟨⟨⟨⟨⟨hx, hW⟩, hb⟩, hWfc⟩, hbfc⟩, hei⟩ := e
  exact ⟨entries_real x _ _ _ hx, entries_real W _ _ _ hW, entries_real b _ _ _ hb, entries_real Wfc _ _ _ hWfc,
    entries_real bfc _ _ _ hbfc, endpoints_are_nodes ei _ _ _ hei⟩

end Cert.Proof.PreFacts

end
-- ==== Proof.Algebraic.lean ====
import proofs.«419665_j81406810129006_3_alg».proof.Defs
import proofs.«419665_j81406810129006_3_alg».proof.Proof.KernelRun
import proofs.«419665_j81406810129006_3_alg».proof.Proof.KernelTail
import proofs.«419665_j81406810129006_3_alg».proof.Proof.KernelValue
import proofs.«419665_j81406810129006_3_alg».proof.Proof.RefTail
import proofs.«419665_j81406810129006_3_alg».proof.Proof.RefPre
import proofs.«419665_j81406810129006_3_alg».proof.Proof.TailsAgree
import proofs.«419665_j81406810129006_3_alg».proof.Proof.PreFacts
import proofs.«419665_j81406810129006_3_alg».proof.Proof.Spec
import proofs.«419665_j81406810129006_3_alg».proof.Proof.Gen.Pre_finite_inputs
import Idealize.ShloMosaic.Lib.ValueIdx

noncomputable section

namespace Cert.Proof

open Idealize.ShloMosaic Idealize.ShloMosaic.TcCoe Idealize.SL.Sem
open Cert.KernelIdeal Cert.KernelIdeal.Gen Cert.KernelIdeal.Hand

/-- Both results are one and the same tail of a pre-activation, and under the precondition both pre-activations are,
    entry by entry, the specification's. -/
theorem algebraic : Cert.algebraic_KernelIdeal_ReferenceIdeal := by
  intro m ρ m' ρ' hpre hagree
  refine ⟨Cert.ReferenceIdeal.ValueP.res_out0 (F := Ideal) m', ?_, Cert.ReferenceIdeal.ValueP.run (F := Ideal) m' ρ'⟩
  refine (θ_run Cert.KernelIdeal.defs _ _).mono (fun r h c => ⟨(h c _ (mem_uc main_v92 (by decide))).trans ?_,
    (h c _ (mem_uc main_arg0 (by decide))).trans (V16_main_arg0 m (kOuts m) c),
    (h c _ (mem_uc main_arg1 (by decide))).trans (V16_main_arg1 m (kOuts m) c),
    (h c _ (mem_uc main_arg2 (by decide))).trans (V16_main_arg2 m (kOuts m) c),
    (h c _ (mem_uc main_arg3 (by decide))).trans (V16_main_arg3 m (kOuts m) c),
    (h c _ (mem_uc main_arg4 (by decide))).trans (V16_main_arg4 m (kOuts m) c),
    (h c _ (mem_uc main_arg5 (by decide))).trans (V16_main_arg5 m (kOuts m) c),
    (h c _ (mem_uc main_arg6 (by decide))).trans (V16_main_arg6 m (kOuts m) c)⟩)
    (kernel_run m ρ)
  obtain ⟨a0, a1, a2, a3, a4, a5, a6⟩ := hagree c
  have hP := Cert.Proof.PreFacts.of_pre _ _ _ _ _ _ _ (hpre c)
  have hR : Cert.Spec.InRange (m ((c : Thread nD τ).loc main_arg1)) := hP.2.2.2.2.2
  have hF : Cert.Spec.Finite (m ((c : Thread nD τ).loc main_arg0)) (m ((c : Thread nD τ).loc main_arg3)) := ⟨hP.1, hP.2.1⟩
  have hz : V13 m (kOuts m) c main_v74 = Cert.ReferenceIdeal.RefValue.refPre (F := Ideal) m' c := by
    refine funext fun (i : S10000x128.Idx) => ?_
    obtain ⟨n, k, rfl⟩ : ∃ (n : Fin 10000) (k : Fin 128), i = ValueIdx.ix2 n k := ⟨i 0, i 1, ValueIdx.eq_ix2 i⟩
    rw [kernel_preact m c hR hF n k, Cert.ReferenceIdeal.RefValue.refPre_eq, a0, a1, a3, a4]
    exact (Cert.ReferenceIdeal.RefValue2.pre_apply _ _ _ _ hR n k).symm
  rw [tail_eq, Cert.ReferenceIdeal.RefValue.res_eq, Cert.TailsAgree.kTail_eq_refTail, hz, a2, a5, a6]

end Cert.Proof

end
-- ==== Proof.lean ====
import proofs.«419665_j81406810129006_3_alg».proof.Defs
import proofs.«419665_j81406810129006_3_alg».proof.Proof.Gen.Kernel
import proofs.«419665_j81406810129006_3_alg».proof.Proof.Gen.KernelIdeal
import proofs.«419665_j81406810129006_3_alg».proof.Proof.Gen.ReferenceIdeal
import proofs.«419665_j81406810129006_3_alg».proof.Proof.Gen.Pre_finite_inputs
import proofs.«419665_j81406810129006_3_alg».proof.Proof.Frames
import proofs.«419665_j81406810129006_3_alg».proof.Proof.RefTail
import proofs.«419665_j81406810129006_3_alg».proof.Proof.Algebraic
import Idealize.ShloMosaic.Adequacy
import Idealize.ShloMosaic.Init

noncomputable section

namespace Cert.Proof

open Idealize.ShloMosaic Idealize.SL.Sem

/-- Three frames, an empty idealization ledger, and equal results: both programs apply one tail to a pre-activation
    that, for real features and in-range edge endpoints, is the specification's sum over the edges into each node. -/
theorem claim : Cert.Claim :=
  ⟨Cert.Kernel.Gen.facts, Cert.KernelIdeal.Gen.facts, Cert.ReferenceIdeal.Gen.facts, Cert.Pre_finite_inputs.Gen.facts,
    Cert.Proof.Frames.frame_p, Cert.Proof.Frames.frame_pi, Cert.ReferenceIdeal.RefValue.frame_ri, trivial,
    Cert.Proof.algebraic⟩

end Cert.Proof

end
